-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S8x4096x4096 : Shape := ⟨3, ![8, 4096, 4096]⟩
abbrev S100000x64 : Shape := ⟨2, ![100000, 64]⟩
abbrev S3x64x64 : Shape := ⟨3, ![3, 64, 64]⟩
abbrev S3x64 : Shape := ⟨2, ![3, 64]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg6 : FVec F S3x64 .f32) (main_arg7 : FVec F S3x64x64 .f32) (main_arg8 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  main_v33

def fn {F : FTy → Type} [FloatOps F] (main_arg0 : IVec S8x2048 32) (main_arg1 : IVec S8x2048 32) (main_arg2 : FVec F S8x4096x4096 .f32) (main_arg3 : FVec F S100000x64 .f32) (main_arg4 : FVec F S100000x64 .f32) (main_arg5 : FVec F S3x64x64 .f32) (main_arg6 : FVec F S3x64 .f32) (main_arg7 : FVec F S3x64x64 .f32) (main_arg8 : FVec F S3x64 .f32) : IVec S_ 1 :=
  let main_v0 : FVec F S8x4096x4096 .f32 := Host.absf main_arg2
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_v13 main_v16
-- ==== Kernel.lean ====
abbrev S8x2048 : Shape := ⟨2, ![8, 2048]⟩
abbrev S8x4096x4096 : Shape := ⟨3, ![8, 4096, 4096]⟩
abbrev S100000x64 : Shape := ⟨2, ![100000, 64]⟩
abbrev S3x64x64 : Shape := ⟨3, ![3, 64, 64]⟩
abbrev S3x64 : Shape := ⟨2, ![3, 64]⟩
abbrev S_ : Shape := ⟨0, ![]⟩
abbrev S8x2048x1 : Shape := ⟨3, ![8, 2048, 1]⟩
abbrev S8x2048x64 : Shape := ⟨3, ![8, 2048, 64]⟩
abbrev S8x4096x64 : Shape := ⟨3, ![8, 4096, 64]⟩
abbrev S3x1x64 : Shape := ⟨3, ![3, 1, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S1x512x4096 : Shape := ⟨3, ![1, 512, 4096]⟩
abbrev S1x4096x64 : Shape := ⟨3, ![1, 4096, 64]⟩
abbrev S1x512x64 : Shape := ⟨3, ![1, 512, 64]⟩
abbrev S512x4096 : Shape := ⟨2, ![512, 4096]⟩
abbrev S4096x64 : Shape := ⟨2, ![4096, 64]⟩
abbrev S512x64 : Shape := ⟨2, ![512, 64]⟩
abbrev S16384x1 : Shape := ⟨2, ![16384, 1]⟩

abbrev nBuf : Space → Nat
  | .hbm => 79
  | .vmem => 36
  | .smem => 0
  | _ => 0

abbrev bufTy : (tb : Table) → Fin (tcTables nBuf tb) → BufTy
  | .hbm, ⟨0, _⟩ => ⟨S8x2048, .i32⟩
  | .hbm, ⟨1, _⟩ => ⟨S8x2048, .i32⟩
  | .hbm, ⟨2, _⟩ => ⟨S8x4096x4096, .f32⟩
  | .hbm, ⟨3, _⟩ => ⟨S100000x64, .f32⟩
  | .hbm, ⟨4, _⟩ => ⟨S100000x64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S_, .i32⟩
  | .hbm, ⟨10, _⟩ => ⟨S8x2048, .i32⟩
  | .hbm, ⟨11, _⟩ => ⟨S8x2048, .i1⟩
  | .hbm, ⟨12, _⟩ => ⟨S_, .i32⟩
  | .hbm, ⟨13, _⟩ => ⟨S8x2048, .i32⟩
  | .hbm, ⟨14, _⟩ => ⟨S8x2048, .i32⟩
  | .hbm, ⟨15, _⟩ => ⟨S8x2048, .i32⟩
  | .hbm, ⟨16, _⟩ => ⟨S8x2048x1, .i32⟩
  | .hbm, ⟨17, _⟩ => ⟨S8x2048x64, .f32⟩
  | .hbm, ⟨18, _⟩ => ⟨S_, .i32⟩
  | .hbm, ⟨19, _⟩ => ⟨S8x2048, .i32⟩
  | .hbm, ⟨20, _⟩ => ⟨S8x2048, .i1⟩
  | .hbm, ⟨21, _⟩ => ⟨S_, .i32⟩
  | .hbm, ⟨22, _⟩ => ⟨S8x2048, .i32⟩
  | .hbm, ⟨23, _⟩ => ⟨S8x2048, .i32⟩
  | .hbm, ⟨24, _⟩ => ⟨S8x2048, .i32⟩
  | .hbm, ⟨25, _⟩ => ⟨S8x2048x1, .i32⟩
  | .hbm, ⟨26, _⟩ => ⟨S8x2048x64, .f32⟩
  | .hbm, ⟨27, _⟩ => ⟨S8x4096x64, .f32⟩
  | .hbm, ⟨28, _⟩ => ⟨S3x64x64, .f32⟩
  | .hbm, ⟨29, _⟩ => ⟨S3x64x64, .f32⟩
  | .hbm, ⟨30, _⟩ => ⟨S3x1x64, .f32⟩
  | .hbm, ⟨31, _⟩ => ⟨S3x1x64, .f32⟩
  | .hbm, ⟨32, _⟩ => ⟨S1x64x64, .f32⟩
  | .hbm, ⟨33, _⟩ => ⟨S64x64, .f32⟩
  | .hbm, ⟨34, _⟩ => ⟨S1x1x64, .f32⟩
  | .hbm, ⟨35, _⟩ => ⟨S1x64, .f32⟩
  | .hbm, ⟨36, _⟩ => ⟨S1x64x64, .f32⟩
  | .hbm, ⟨37, _⟩ => ⟨S64x64, .f32⟩
  | .hbm, ⟨38, _⟩ => ⟨S1x1x64, .f32⟩
  | .hbm, ⟨39, _⟩ => ⟨S1x64, .f32⟩
  | .hbm, ⟨40, _⟩ => ⟨S8x4096x64, .f32⟩
  | .hbm, ⟨41, _⟩ => ⟨S1x64x64, .f32⟩
  | .hbm, ⟨42, _⟩ => ⟨S64x64, .f32⟩
  | .hbm, ⟨43, _⟩ => ⟨S1x1x64, .f32⟩
  | .hbm, ⟨44, _⟩ => ⟨S1x64, .f32⟩
  | .hbm, ⟨45, _⟩ => ⟨S1x64x64, .f32⟩
  | .hbm, ⟨46, _⟩ => ⟨S64x64, .f32⟩
  | .hbm, ⟨47, _⟩ => ⟨S1x1x64, .f32⟩
  | .hbm, ⟨48, _⟩ => ⟨S1x64, .f32⟩
  | .hbm, ⟨49, _⟩ => ⟨S8x4096x64, .f32⟩
  | .hbm, ⟨50, _⟩ => ⟨S1x64x64, .f32⟩
  | .hbm, ⟨51, _⟩ => ⟨S64x64, .f32⟩
  | .hbm, ⟨52, _⟩ => ⟨S1x1x64, .f32⟩
  | .hbm, ⟨53, _⟩ => ⟨S1x64, .f32⟩
  | .hbm, ⟨54, _⟩ => ⟨S1x64x64, .f32⟩
  | .hbm, ⟨55, _⟩ => ⟨S64x64, .f32⟩
  | .hbm, ⟨56, _⟩ => ⟨S1x1x64, .f32⟩
  | .hbm, ⟨57, _⟩ => ⟨S1x64, .f32⟩
  | .hbm, ⟨58, _⟩ => ⟨S8x4096x64, .f32⟩
  | .hbm, ⟨59, _⟩ => ⟨S8x2048x64, .f32⟩
  | .hbm, ⟨60, _⟩ => ⟨S8x2048x64, .f32⟩
  | .hbm, ⟨61, _⟩ => ⟨S8x2048x64, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048, .f32⟩
  | .hbm, ⟨67, _⟩ => ⟨S_, .f32⟩
  | .hbm, ⟨68, _⟩ => ⟨S8x2048, .f32⟩
  | .hbm, ⟨69, _⟩ => ⟨S8x2048, .f32⟩
  | .hbm, ⟨70, _⟩ => ⟨S8x2048x1, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S16384x1, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x64, .f32⟩
  | .local _ .vmem, ⟨3, _⟩ => ⟨S1x4096x64, .f32⟩
  | .local _ .vmem, ⟨4, _⟩ => ⟨S1x512x64, .f32⟩
  | .local _ .vmem, ⟨5, _⟩ => ⟨S1x512x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S1x512x64, .f32⟩
  | .local _ .vmem, ⟨11, _⟩ => ⟨S1x512x64, .f32⟩
  | .local _ .vmem, ⟨12, _⟩ => ⟨S1x512x4096, .f32⟩
  | .local _ .vmem, ⟨13, _⟩ => ⟨S1x512x4096, .f32⟩
  | .local _ .vmem, ⟨14, _⟩ => ⟨S1x4096x64, .f32⟩
  | .local _ .vmem, ⟨15, _⟩ => ⟨S1x4096x64, .f32⟩
  | .local _ .vmem, ⟨16, _⟩ => ⟨S1x512x64, .f32⟩
  | .local _ .vmem, ⟨17, _⟩ => ⟨S1x512x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S1x512x64, .f32⟩
  | .local _ .vmem, ⟨23, _⟩ => ⟨S1x512x64, .f32⟩
  | .local _ .vmem, ⟨24, _⟩ => ⟨S1x512x4096, .f32⟩
  | .local _ .vmem, ⟨25, _⟩ => ⟨S1x512x4096, .f32⟩
  | .local _ .vmem, ⟨26, _⟩ => ⟨S1x4096x64, .f32⟩
  | .local _ .vmem, ⟨27, _⟩ => ⟨S1x4096x64, .f32⟩
  | .local _ .vmem, ⟨28, _⟩ => ⟨S1x512x64, .f32⟩
  | .local _ .vmem, ⟨29, _⟩ => ⟨S1x512x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S1x512x64, .f32⟩
  | .local _ .vmem, ⟨35, _⟩ => ⟨S1x512x64, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst : Ref sig .tc := ⟨.hbm, 62, rfl⟩
abbrev main_v49 : Ref sig .tc := ⟨.hbm, 63, rfl⟩
abbrev main_v50 : Ref sig .tc := ⟨.hbm, 64, rfl⟩
abbrev main_call0_cst : Ref sig .tc := ⟨.hbm, 65, rfl⟩
abbrev main_call0_v0 : Ref sig .tc := ⟨.hbm, 66, rfl⟩
abbrev main_call0_cst_0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_cst_1 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x512x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  concatenates_S8x2048x64_S8x2048x64_S8x4096x64_d1 : Shape.Concatenates [S8x2048x64, S8x2048x64] S8x4096x64 1
  transposes_S3x64x64_S3x64x64_0_2_1 : S3x64x64.Transposes [0, 2, 1] S3x64x64
  shapeCasts_S3x64_S3x1x64 : S3x64.ShapeCasts S3x1x64
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  slices_S8x4096x64_S8x2048x64_0_0_0 : S8x4096x64.Slices ![0, 0, 0] S8x2048x64
  slices_S8x4096x64_S8x2048x64_0_2048_0 : S8x4096x64.Slices ![0, 2048, 0] S8x2048x64
  reducesTo_S8x2048x64_S8x2048_d2 : S8x2048x64.ReducesTo [2] S8x2048
  h_S_ : 0 < S_.numel
  reducesTo_S8x2048x1_S8x2048_d2 : S8x2048x1.ReducesTo [2] S8x2048
  shapeCasts_S8x2048x1_S16384x1 : S8x2048x1.ShapeCasts S16384x1
  gather_S100000x64_S8x2048x1_S8x2048x64_2_0_n_n_0_2_164_wf : GatherDims.WF S100000x64 S8x2048x1 S8x2048x64 [2] [0] [] [0] [] 2 ![1, 64]
  dot_S512x4096_S4096x64_S512x64_1_0_0_1_n_n_wf : DotDims.WF S512x4096 S4096x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x4096x4096.size a
  hwx0_0 : ∀ i : grid0.Coords, EltTy.bits .f32 = 32 ∨ (Rect.block (s := S8x4096x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .f32 = 32 ∨ (Rect.block (s := S8x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S8x4096x64.size a
  hwx0_2 : ∀ i : grid0.Coords, EltTy.bits .f32 = 32 ∨ (Rect.block (s := S8x4096x64) S1x512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x64.size a ≤ S8x4096x64.size a
  hwx0_7 : ∀ i : grid0.Coords, EltTy.bits .f32 = 32 ∨ (Rect.block (s := S8x4096x64) S1x512x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S8x4096x4096.size a
  hwx1_0 : ∀ i : grid1.Coords, EltTy.bits .f32 = 32 ∨ (Rect.block (s := S8x4096x4096) S1x512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S8x4096x64.size a
  hwx1_1 : ∀ i : grid1.Coords, EltTy.bits .f32 = 32 ∨ (Rect.block (s := S8x4096x64) S1x4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S8x4096x64.size a
  hwx1_2 : ∀ i : grid1.Coords, EltTy.bits .f32 = 32 ∨ (Rect.block (s := S8x4096x64) S1x512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x64.size a ≤ S8x4096x64.size a
  hwx1_7 : ∀ i : grid1.Coords, EltTy.bits .f32 = 32 ∨ (Rect.block (s := S8x4096x64) S1x512x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x4096.size a ≤ S8x4096x4096.size a
  hwx2_0 : ∀ i : grid2.Coords, EltTy.bits .f32 = 32 ∨ (Rect.block (s := S8x4096x4096) S1x512x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096x64.size a ≤ S8x4096x64.size a
  hwx2_1 : ∀ i : grid2.Coords, EltTy.bits .f32 = 32 ∨ (Rect.block (s := S8x4096x64) S1x4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x64.size a ≤ S8x4096x64.size a
  hwx2_2 : ∀ i : grid2.Coords, EltTy.bits .f32 = 32 ∨ (Rect.block (s := S8x4096x64) S1x512x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x512x64.size a ≤ S8x4096x64.size a
  hwx2_7 : ∀ i : grid2.Coords, EltTy.bits .f32 = 32 ∨ (Rect.block (s := S8x4096x64) S1x512x64.size (cc2_transform_7 i) (hinb2_7 i)).WholeWords (EltTy.packing .f32)

variable [Facts₀]

def gather_S100000x64_S8x2048x1_S8x2048x64_2_0_n_n_0_2_164 : GatherDims S100000x64 S8x2048x1 S8x2048x64 where
  offsetDims := [2]
  collapsedSliceDims := [0]
  operandBatchingDims := []
  startIndicesBatchingDims := []
  startIndexMap := [0]
  indexVectorDim := 2
  sliceSizes := ![1, 64]
  wf := gather_S100000x64_S8x2048x1_S8x2048x64_2_0_n_n_0_2_164_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg2) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x512x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg2) S1x512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x512x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45) S1x512x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8x2048 : Shape := ⟨2, ![8, 2048]⟩
abbrev S8x4096x4096 : Shape := ⟨3, ![8, 4096, 4096]⟩
abbrev S100000x64 : Shape := ⟨2, ![100000, 64]⟩
abbrev S3x64x64 : Shape := ⟨3, ![3, 64, 64]⟩
abbrev S3x64 : Shape := ⟨2, ![3, 64]⟩
abbrev S_ : Shape := ⟨0, ![]⟩
abbrev S8x2048x1 : Shape := ⟨3, ![8, 2048, 1]⟩
abbrev S8x2048x64 : Shape := ⟨3, ![8, 2048, 64]⟩
abbrev S8x4096x64 : Shape := ⟨3, ![8, 4096, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x1x64 : Shape := ⟨3, ![1, 1, 64]⟩
abbrev S16384x1 : Shape := ⟨2, ![16384, 1]⟩

abbrev nBuf : Space → Nat
  | .hbm => 147
  | .vmem => 0
  | .smem => 0
  | _ => 0

abbrev hbmTy0_0 (i : Nat) : BufTy := match i % 128 with
  | 0 => ⟨S8x2048, .i32⟩
  | 1 => ⟨S8x2048, .i32⟩
  | 2 => ⟨S8x4096x4096, .f32⟩
  | 3 => ⟨S100000x64, .f32⟩
  | 4 => ⟨S100000x64, .f32⟩
  | 5 => ⟨S3x64x64, .f32⟩
  | 6 => ⟨S3x64, .f32⟩
  | 7 => ⟨S3x64x64, .f32⟩
  | 8 => ⟨S3x64, .f32⟩
  | 9 => ⟨S_, .i32⟩
  | 10 => ⟨S8x2048, .i32⟩
  | 11 => ⟨S8x2048, .i1⟩
  | 12 => ⟨S_, .i32⟩
  | 13 => ⟨S8x2048, .i32⟩
  | 14 => ⟨S8x2048, .i32⟩
  | 15 => ⟨S8x2048, .i32⟩
  | 16 => ⟨S8x2048x1, .i32⟩
  | 17 => ⟨S8x2048x64, .f32⟩
  | 18 => ⟨S_, .i32⟩
  | 19 => ⟨S8x2048, .i32⟩
  | 20 => ⟨S8x2048, .i1⟩
  | 21 => ⟨S_, .i32⟩
  | 22 => ⟨S8x2048, .i32⟩
  | 23 => ⟨S8x2048, .i32⟩
  | 24 => ⟨S8x2048, .i32⟩
  | 25 => ⟨S8x2048x1, .i32⟩
  | 26 => ⟨S8x2048x64, .f32⟩
  | 27 => ⟨S8x4096x64, .f32⟩
  | 28 => ⟨S8x4096x64, .f32⟩
  | 29 => ⟨S1x64x64, .f32⟩
  | 30 => ⟨S64x64, .f32⟩
  | 31 => ⟨S8x4096x64, .f32⟩
  | 32 => ⟨S1x64, .f32⟩
  | 33 => ⟨S64, .f32⟩
  | 34 => ⟨S1x1x64, .f32⟩
  | 35 => ⟨S8x4096x64, .f32⟩
  | 36 => ⟨S8x4096x64, .f32⟩
  | 37 => ⟨S_, .f32⟩
  | 38 => ⟨S8x4096x64, .f32⟩
  | 39 => ⟨S8x4096x64, .i1⟩
  | 40 => ⟨S_, .f32⟩
  | 41 => ⟨S8x4096x64, .f32⟩
  | 42 => ⟨S8x4096x64, .f32⟩
  | 43 => ⟨S8x4096x64, .f32⟩
  | 44 => ⟨S8x4096x64, .f32⟩
  | 45 => ⟨S1x64x64, .f32⟩
  | 46 => ⟨S64x64, .f32⟩
  | 47 => ⟨S8x4096x64, .f32⟩
  | 48 => ⟨S1x64, .f32⟩
  | 49 => ⟨S64, .f32⟩
  | 50 => ⟨S1x1x64, .f32⟩
  | 51 => ⟨S8x4096x64, .f32⟩
  | 52 => ⟨S8x4096x64, .f32⟩
  | 53 => ⟨S_, .f32⟩
  | 54 => ⟨S8x4096x64, .f32⟩
  | 55 => ⟨S8x4096x64, .i1⟩
  | 56 => ⟨S_, .f32⟩
  | 57 => ⟨S8x4096x64, .f32⟩
  | 58 => ⟨S8x4096x64, .f32⟩
  | 59 => ⟨S8x4096x64, .f32⟩
  | 60 => ⟨S8x4096x64, .f32⟩
  | 61 => ⟨S8x4096x64, .f32⟩
  | 62 => ⟨S1x64x64, .f32⟩
  | 63 => ⟨S64x64, .f32⟩
  | 64 => ⟨S8x4096x64, .f32⟩
  | 65 => ⟨S1x64, .f32⟩
  | 66 => ⟨S64, .f32⟩
  | 67 => ⟨S1x1x64, .f32⟩
  | 68 => ⟨S8x4096x64, .f32⟩
  | 69 => ⟨S8x4096x64, .f32⟩
  | 70 => ⟨S_, .f32⟩
  | 71 => ⟨S8x4096x64, .f32⟩
  | 72 => ⟨S8x4096x64, .i1⟩
  | 73 => ⟨S_, .f32⟩
  | 74 => ⟨S8x4096x64, .f32⟩
  | 75 => ⟨S8x4096x64, .f32⟩
  | 76 => ⟨S8x4096x64, .f32⟩
  | 77 => ⟨S8x4096x64, .f32⟩
  | 78 => ⟨S1x64x64, .f32⟩
  | 79 => ⟨S64x64, .f32⟩
  | 80 => ⟨S8x4096x64, .f32⟩
  | 81 => ⟨S1x64, .f32⟩
  | 82 => ⟨S64, .f32⟩
  | 83 => ⟨S1x1x64, .f32⟩
  | 84 => ⟨S8x4096x64, .f32⟩
  | 85 => ⟨S8x4096x64, .f32⟩
  | 86 => ⟨S_, .f32⟩
  | 87 => ⟨S8x4096x64, .f32⟩
  | 88 => ⟨S8x4096x64, .i1⟩
  | 89 => ⟨S_, .f32⟩
  | 90 => ⟨S8x4096x64, .f32⟩
  | 91 => ⟨S8x4096x64, .f32⟩
  | 92 => ⟨S8x4096x64, .f32⟩
  | 93 => ⟨S8x4096x64, .f32⟩
  | 94 => ⟨S8x4096x64, .f32⟩
  | 95 => ⟨S1x64x64, .f32⟩
  | 96 => ⟨S64x64, .f32⟩
  | 97 => ⟨S8x4096x64, .f32⟩
  | 98 => ⟨S1x64, .f32⟩
  | 99 => ⟨S64, .f32⟩
  | 100 => ⟨S1x1x64, .f32⟩
  | 101 => ⟨S8x4096x64, .f32⟩
  | 102 => ⟨S8x4096x64, .f32⟩
  | 103 => ⟨S_, .f32⟩
  | 104 => ⟨S8x4096x64, .f32⟩
  | 105 => ⟨S8x4096x64, .i1⟩
  | 106 => ⟨S_, .f32⟩
  | 107 => ⟨S8x4096x64, .f32⟩
  | 108 => ⟨S8x4096x64, .f32⟩
  | 109 => ⟨S8x4096x64, .f32⟩
  | 110 => ⟨S8x4096x64, .f32⟩
  | 111 => ⟨S1x64x64, .f32⟩
  | 112 => ⟨S64x64, .f32⟩
  | 113 => ⟨S8x4096x64, .f32⟩
  | 114 => ⟨S1x64, .f32⟩
  | 115 => ⟨S64, .f32⟩
  | 116 => ⟨S1x1x64, .f32⟩
  | 117 => ⟨S8x4096x64, .f32⟩
  | 118 => ⟨S8x4096x64, .f32⟩
  | 119 => ⟨S_, .f32⟩
  | 120 => ⟨S8x4096x64, .f32⟩
  | 121 => ⟨S8x4096x64, .i1⟩
  | 122 => ⟨S_, .f32⟩
  | 123 => ⟨S8x4096x64, .f32⟩
  | 124 => ⟨S8x4096x64, .f32⟩
  | 125 => ⟨S8x4096x64, .f32⟩
  | 126 => ⟨S8x4096x64, .f32⟩
  | 127 => ⟨S8x2048x64, .f32⟩
  | _ => ⟨S8x2048, .i32⟩

abbrev hbmTy0_1 (i : Nat) : BufTy := match i % 128 with
  | 0 => ⟨S8x2048x64, .f32⟩
  | 1 => ⟨S8x2048x64, .f32⟩
  | 2 => ⟨S_, .f32⟩
  | 3 => ⟨S8x2048, .f32⟩
  | 4 => ⟨S8x2048x1, .f32⟩
  | 5 => ⟨S_, .f32⟩
  | 6 => ⟨S8x2048, .f32⟩
  | 7 => ⟨S_, .f32⟩
  | 8 => ⟨S8x2048, .f32⟩
  | 9 => ⟨S8x2048, .f32⟩
  | 10 => ⟨S8x2048x1, .f32⟩
  | 11 => ⟨S8x2048x1, .f32⟩
  | 12 => ⟨S8x2048x1, .f32⟩
  | 13 => ⟨S_, .f32⟩
  | 14 => ⟨S8x2048, .f32⟩
  | 15 => ⟨S8x2048x1, .f32⟩
  | 16 => ⟨S8x2048x1, .f32⟩
  | 17 => ⟨S8x2048x1, .f32⟩
  | 18 => ⟨S16384x1, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call2_cst : Ref sig .tc := ⟨.hbm, 70, rfl⟩
abbrev main_call2_v0 : Ref sig .tc := ⟨.hbm, 71, rfl⟩
abbrev main_call2_v1 : Ref sig .tc := ⟨.hbm, 72, rfl⟩
abbrev main_call2_cst_0 : Ref sig .tc := ⟨.hbm, 73, rfl⟩
abbrev main_call2_v2 : Ref sig .tc := ⟨.hbm, 74, rfl⟩
abbrev main_call2_v3 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_cst_0 : Ref sig .tc := ⟨.hbm, 89, rfl⟩
abbrev main_call3_v2 : Ref sig .tc := ⟨.hbm, 90, rfl⟩
abbrev main_call3_v3 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call4_cst : Ref sig .tc := ⟨.hbm, 103, rfl⟩
abbrev main_call4_v0 : Ref sig .tc := ⟨.hbm, 104, rfl⟩
abbrev main_call4_v1 : Ref sig .tc := ⟨.hbm, 105, rfl⟩
abbrev main_call4_cst_0 : Ref sig .tc := ⟨.hbm, 106, rfl⟩
abbrev main_call4_v2 : Ref sig .tc := ⟨.hbm, 107, rfl⟩
abbrev main_call4_v3 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_call5_cst : Ref sig .tc := ⟨.hbm, 119, rfl⟩
abbrev main_call5_v0 : Ref sig .tc := ⟨.hbm, 120, rfl⟩
abbrev main_call5_v1 : Ref sig .tc := ⟨.hbm, 121, rfl⟩
abbrev main_call5_cst_0 : Ref sig .tc := ⟨.hbm, 122, rfl⟩
abbrev main_call5_v2 : Ref sig .tc := ⟨.hbm, 123, rfl⟩
abbrev main_call5_v3 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst : Ref sig .tc := ⟨.hbm, 130, rfl⟩
abbrev main_v81 : Ref sig .tc := ⟨.hbm, 131, rfl⟩
abbrev main_v82 : Ref sig .tc := ⟨.hbm, 132, rfl⟩
abbrev main_call6_cst : Ref sig .tc := ⟨.hbm, 133, rfl⟩
abbrev main_call6_v0 : Ref sig .tc := ⟨.hbm, 134, rfl⟩
abbrev main_call6_cst_0 : Ref sig .tc := ⟨.hbm, 135, rfl⟩
abbrev main_call6_v1 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_v5 : Ref sig .tc := ⟨.hbm, 140, rfl⟩
abbrev main_call6_cst_1 : Ref sig .tc := ⟨.hbm, 141, rfl⟩
abbrev main_call6_v6 : Ref sig .tc := ⟨.hbm, 142, rfl⟩
abbrev main_call6_v7 : Ref sig .tc := ⟨.hbm, 143, rfl⟩
abbrev main_call6_v8 : Ref sig .tc := ⟨.hbm, 144, rfl⟩
abbrev main_v83 : Ref sig .tc := ⟨.hbm, 145, rfl⟩
abbrev main_v84 : Ref sig .tc := ⟨.hbm, 146, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  concatenates_S8x2048x64_S8x2048x64_S8x4096x64_d1 : Shape.Concatenates [S8x2048x64, S8x2048x64] S8x4096x64 1
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S_S8x4096x64 : S_.BroadcastsInDim S8x4096x64 (![] : Fin 0 → Fin S8x4096x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S8x4096x64_S8x2048x64_0_0_0 : S8x4096x64.Slices ![0, 0, 0] S8x2048x64
  slices_S8x4096x64_S8x2048x64_0_2048_0 : S8x4096x64.Slices ![0, 2048, 0] S8x2048x64
  reducesTo_S8x2048x64_S8x2048_d2 : S8x2048x64.ReducesTo [2] S8x2048
  h_S_ : 0 < S_.numel
  reducesTo_S8x2048x1_S8x2048_d2 : S8x2048x1.ReducesTo [2] S8x2048
  shapeCasts_S8x2048x1_S16384x1 : S8x2048x1.ShapeCasts S16384x1
  gather_S100000x64_S8x2048x1_S8x2048x64_2_0_n_n_0_2_164_wf : GatherDims.WF S100000x64 S8x2048x1 S8x2048x64 [2] [0] [] [0] [] 2 ![1, 64]
  dot_S8x4096x4096_S8x4096x64_S8x4096x64_2_1_1_2_0_0_wf : DotDims.WF S8x4096x4096 S8x4096x64 S8x4096x64 [2] [1] [1] [2] [0] [0]
  dot_S8x4096x64_S64x64_S8x4096x64_2_1_01_0_n_n_wf : DotDims.WF S8x4096x64 S64x64 S8x4096x64 [2] [1] [0, 1] [0] [] []

variable [Facts₀]

def gather_S100000x64_S8x2048x1_S8x2048x64_2_0_n_n_0_2_164 : GatherDims S100000x64 S8x2048x1 S8x2048x64 where
  offsetDims := [2]
  collapsedSliceDims := [0]
  operandBatchingDims := []
  startIndicesBatchingDims := []
  startIndexMap := [0]
  indexVectorDim := 2
  sliceSizes := ![1, 64]
  wf := gather_S100000x64_S8x2048x1_S8x2048x64_2_0_n_n_0_2_164_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf
def dot_S8x4096x64_S64x64_S8x4096x64_2_1_01_0_n_n : DotDims S8x4096x64 S64x64 S8x4096x64 where
  lhsContracting := [2]
  rhsContracting := [1]
  lhsNonContracting := [0, 1]
  rhsNonContracting := [0]
  lhsBatch := []
  rhsBatch := []
  wf := dot_S8x4096x64_S64x64_S8x4096x64_2_1_01_0_n_n_wf

class Facts : Prop extends Facts₀ where

variable [Facts]
-- ==== Proof.KTile.lean ====
import proofs.«136874_j78494822302010_1_alg».proof.Proof.Gen.Kernel.Launch
import proofs.«136874_j78494822302010_1_alg».proof.Proof.Gen.Kernel.Skeleton
import proofs.«136874_j78494822302010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev rAdj : Rect S1x512x4096 := Rect.unit (s := S1x512x4096) ![0, 0, 0] S1x512x4096.size inb_S1x512x4096_S1x512x4096_0_0_0
abbrev rFull : Rect S1x4096x64 := Rect.unit (s := S1x4096x64) ![0, 0, 0] S1x4096x64.size inb_S1x4096x64_S1x4096x64_0_0_0
abbrev rTile : Rect S1x512x64 := Rect.unit (s := S1x512x64) ![0, 0, 0] S1x512x64.size inb_S1x512x64_S1x512x64_0_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- The 512 × 64 output tile as a function of the seven input blocks: the sum of the two rectified branches. -/
def outTile (x0 : Vec F S1x512x4096 .f32) (x1 : Vec F S1x4096x64 .f32) (x2 : Vec F S1x512x64 .f32)
    (x3 : Vec F S64x64 .f32) (x4 : Vec F S1x64 .f32) (x5 : Vec F S64x64 .f32) (x6 : Vec F S1x64 .f32) : Vec F S1x512x64 .f32 :=
  View.canon [⟨rTile, k0_pay1
    (k0_pay3 (View.ld x0 rAdj) (View.ld x1 rFull) (View.ld x3 rW) (View.ld x4 rB))
    (k0_pay4 (View.ld x0 rAdj) (View.ld x1 rFull) (View.ld x5 rW) (View.ld x6 rB) (View.ld x2 rTile))
    (k0_pay5 (View.ld x0 rAdj) (View.ld x1 rFull) (View.ld x5 rW) (View.ld x6 rB) (View.ld x2 rTile))⟩]

theorem cover_tile (p0 : Vec F S1x512x64 .f32) (y : S1x512x64.Idx) :
    ∃ pc ∈ ([⟨rTile, p0⟩] : List (View.Piece (Elt F) S1x512x64 .f32)), y ∈ pc.1.set :=
  View.cover_of_tiled [⟨rTile, p0⟩] S1x512x64.size (by rfl) y

set_option maxHeartbeats 4000000 in
/-- The three layer calls have one body: proved once, for any program equal to the first call's. -/
theorem sound_tile (prog : type_of% (cc0_ngcf_layer_kernel (F := F))) (hprog : prog = cc0_ngcf_layer_kernel) (c : Dev nD) (E : Set ℕ) (i : grid0.Coords)
    (arg2 : Memref sig .tc .vmem S1x512x4096 .f32) (harg2 : arg2.IsWhole) (arg3 : Memref sig .tc .vmem S1x4096x64 .f32) (harg3 : arg3.IsWhole)
    (arg4 : Memref sig .tc .vmem S1x512x64 .f32) (harg4 : arg4.IsWhole) (arg5 : Memref sig .tc .vmem S64x64 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole) (arg9 : Memref sig .tc .vmem S1x512x64 .f32) (harg9 : arg9.IsWhole)
    (x0 : Vec F S1x512x4096 .f32) (x1 : Vec F S1x4096x64 .f32) (x2 : Vec F S1x512x64 .f32)
    (x3 : Vec F S64x64 .f32) (x4 : Vec F S1x64 .f32) (x5 : Vec F S64x64 .f32) (x6 : Vec F S1x64 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outTile x0 x1 x2 x3 x4 x5 x6)) -∗ K ⟨⟩))
      ⊢ wp frame (wpE (defs₀ (F := F)) Variants.none c none) E (prog i arg2 harg2 arg3 harg3 arg4 harg4 arg5 harg5 arg6 harg6 arg7 harg7 arg8 harg8 arg9 harg9) K := by
  subst hprog
  simp only [cc0_ngcf_layer_kernel_eq_skeleton]; unfold cc0_ngcf_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_tile _)

end Cert.Kernel.Layer

end
-- ==== Proof.KRegion0.lean ====
import proofs.«136874_j78494822302010_1_alg».proof.Proof.KTile

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The part of window w's array that its index map selects at grid point t. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outTile (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by dsimp only [dat0]

theorem after0_7 (c : Dev nD) (t : Fin cfg0.N) : (dat0 V c).after 7 t
    = outTile (iblk0 V c 0 t) (iblk0 V c 1 t) (iblk0 V c 2 t) (iblk0 V c 3 t) (iblk0 V c 4 t) (iblk0 V c 5 t) (iblk0 V c 6 t) := by dsimp only [dat0]

theorem after0 (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t
    ∧ (dat0 V c).after 4 t = iblk0 V c 4 t ∧ (dat0 V c).after 5 t = iblk0 V c 5 t ∧ (dat0 V c).after 6 t = iblk0 V c 6 t := by
  refine ⟨?_, ?_, ?_, ?_, ?_, ?_, ?_⟩ <;> dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
    ∧ (∀ d, (dat0 V c).before 3 t d = iblk0 V c 3 t) ∧ (∀ d, (dat0 V c).before 4 t d = iblk0 V c 4 t) ∧ (∀ d, (dat0 V c).before 5 t d = iblk0 V c 5 t)
    ∧ (∀ d, (dat0 V c).before 6 t d = iblk0 V c 6 t) := by
  refine ⟨?_, ?_, ?_, ?_, ?_, ?_, ?_⟩ <;>
    exact fun d => ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  have hb := before0 V c t
  have ha := after0 V c t
  simp only [hb.1, hb.2.1, hb.2.2.1, hb.2.2.2.1, hb.2.2.2.2.1, hb.2.2.2.2.2.1, hb.2.2.2.2.2.2,
    ha.1, ha.2.1, ha.2.2.1, ha.2.2.2.1, ha.2.2.2.2.1, ha.2.2.2.2.2.1, ha.2.2.2.2.2.2, after0_7]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_tile cc0_ngcf_layer_kernel rfl c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  iframe
  isplitl [H7]; · iexists _; iexact H7
  iintro ⟨H0, H1, H2, H3, H4, H5, H6, H7⟩
  iframe

end Cert.Kernel.Layer

end
-- ==== Proof.KShare0.lean ====
import proofs.«136874_j78494822302010_1_alg».proof.Proof.KRegion0

set_option maxRecDepth 16384

noncomputable section

namespace Cert.Kernel.Layer

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

theorem arrays0_eq (V : (c : Dev nD) → (b : Ref sig .tc) → Buf (Elt F) ((c : Thread nD τ).loc b)) (c : Dev nD)
    (Vv : (b : Ref sig .tc) → Buf (Elt F) ((c : Thread nD τ).loc b))
    (Fw : (w : Fin cfg0.W) → Buf (Elt F) ((cfg0.win w).arr.view.loc (c : Thread nD τ))) (hF : ∀ w, Fw w = Vv (Pipeline.arrRef spec0 w)) :
    (Pipeline.arrBufs (Ix := Unit) (Name := ℕ) (U := UR sig nD τ) (Lvl := ℕ) spec0 c Vv ⊢ (dat0 V c).arrays Fw)
      ∧ ((dat0 V c).arrays Fw ⊢ Pipeline.arrBufs (Ix := Unit) (Name := ℕ) (U := UR sig nD τ) (Lvl := ℕ) spec0 c Vv) := by
  obtain rfl := funext hF
  unfold Pipeline.arrBufs Dat.arrays
  rw [bigSep_eq_bigSepL_of_eq [main_arg2, main_v14, main_v20, main_v22, main_v24, main_v26, main_v27] (by decide) (by decide), bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ]
  exact ⟨sep_mono .rfl ((sep_mono (pointsTo_share (PosShare.mem_left_op_right fullShare)).1 .rfl).trans sep_assoc),
    sep_mono .rfl (sep_assoc'.trans (sep_mono (pointsTo_share (PosShare.mem_left_op_right fullShare)).2 .rfl))⟩

end Cert.Kernel.Layer

end
-- ==== Proof.KRegion1.lean ====
import proofs.«136874_j78494822302010_1_alg».proof.Proof.KTile

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The part of window w's array that its index map selects at grid point t. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outTile (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by dsimp only [dat1]

theorem after1_7 (c : Dev nD) (t : Fin cfg1.N) : (dat1 V c).after 7 t
    = outTile (iblk1 V c 0 t) (iblk1 V c 1 t) (iblk1 V c 2 t) (iblk1 V c 3 t) (iblk1 V c 4 t) (iblk1 V c 5 t) (iblk1 V c 6 t) := by dsimp only [dat1]

theorem after1 (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t
    ∧ (dat1 V c).after 4 t = iblk1 V c 4 t ∧ (dat1 V c).after 5 t = iblk1 V c 5 t ∧ (dat1 V c).after 6 t = iblk1 V c 6 t := by
  refine ⟨?_, ?_, ?_, ?_, ?_, ?_, ?_⟩ <;> dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
    ∧ (∀ d, (dat1 V c).before 3 t d = iblk1 V c 3 t) ∧ (∀ d, (dat1 V c).before 4 t d = iblk1 V c 4 t) ∧ (∀ d, (dat1 V c).before 5 t d = iblk1 V c 5 t)
    ∧ (∀ d, (dat1 V c).before 6 t d = iblk1 V c 6 t) := by
  refine ⟨?_, ?_, ?_, ?_, ?_, ?_, ?_⟩ <;>
    exact fun d => ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  have hb := before1 V c t
  have ha := after1 V c t
  simp only [hb.1, hb.2.1, hb.2.2.1, hb.2.2.2.1, hb.2.2.2.2.1, hb.2.2.2.2.2.1, hb.2.2.2.2.2.2,
    ha.1, ha.2.1, ha.2.2.1, ha.2.2.2.1, ha.2.2.2.2.1, ha.2.2.2.2.2.1, ha.2.2.2.2.2.2, after1_7]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_tile cc1_ngcf_layer_kernel rfl c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  iframe
  isplitl [H7]; · iexists _; iexact H7
  iintro ⟨H0, H1, H2, H3, H4, H5, H6, H7⟩
  iframe

end Cert.Kernel.Layer

end
-- ==== Proof.KShare1.lean ====
import proofs.«136874_j78494822302010_1_alg».proof.Proof.KRegion1

set_option maxRecDepth 16384

noncomputable section

namespace Cert.Kernel.Layer

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

theorem arrays1_eq (V : (c : Dev nD) → (b : Ref sig .tc) → Buf (Elt F) ((c : Thread nD τ).loc b)) (c : Dev nD)
    (Vv : (b : Ref sig .tc) → Buf (Elt F) ((c : Thread nD τ).loc b))
    (Fw : (w : Fin cfg1.W) → Buf (Elt F) ((cfg1.win w).arr.view.loc (c : Thread nD τ))) (hF : ∀ w, Fw w = Vv (Pipeline.arrRef spec1 w)) :
    (Pipeline.arrBufs (Ix := Unit) (Name := ℕ) (U := UR sig nD τ) (Lvl := ℕ) spec1 c Vv ⊢ (dat1 V c).arrays Fw)
      ∧ ((dat1 V c).arrays Fw ⊢ Pipeline.arrBufs (Ix := Unit) (Name := ℕ) (U := UR sig nD τ) (Lvl := ℕ) spec1 c Vv) := by
  obtain rfl := funext hF
  unfold Pipeline.arrBufs Dat.arrays
  rw [bigSep_eq_bigSepL_of_eq [main_arg2, main_v27, main_v29, main_v31, main_v33, main_v35, main_v36] (by decide) (by decide), bigSep_W1]
  simp only [(arr_whole1 0).set_eq_univ, (arr_whole1 1).set_eq_univ, (arr_whole1 2).set_eq_univ, (arr_whole1 3).set_eq_univ,
    (arr_whole1 4).set_eq_univ, (arr_whole1 5).set_eq_univ, (arr_whole1 6).set_eq_univ, (arr_whole1 7).set_eq_univ]
  exact ⟨sep_mono .rfl ((sep_mono (pointsTo_share (PosShare.mem_left_op_right fullShare)).1 .rfl).trans sep_assoc),
    sep_mono .rfl (sep_assoc'.trans (sep_mono (pointsTo_share (PosShare.mem_left_op_right fullShare)).2 .rfl))⟩

end Cert.Kernel.Layer

end
-- ==== Proof.KRegion2.lean ====
import proofs.«136874_j78494822302010_1_alg».proof.Proof.KTile

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The part of window w's array that its index map selects at grid point t. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outTile (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by dsimp only [dat2]

theorem after2_7 (c : Dev nD) (t : Fin cfg2.N) : (dat2 V c).after 7 t
    = outTile (iblk2 V c 0 t) (iblk2 V c 1 t) (iblk2 V c 2 t) (iblk2 V c 3 t) (iblk2 V c 4 t) (iblk2 V c 5 t) (iblk2 V c 6 t) := by dsimp only [dat2]

theorem after2 (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t
    ∧ (dat2 V c).after 4 t = iblk2 V c 4 t ∧ (dat2 V c).after 5 t = iblk2 V c 5 t ∧ (dat2 V c).after 6 t = iblk2 V c 6 t := by
  refine ⟨?_, ?_, ?_, ?_, ?_, ?_, ?_⟩ <;> dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
    ∧ (∀ d, (dat2 V c).before 3 t d = iblk2 V c 3 t) ∧ (∀ d, (dat2 V c).before 4 t d = iblk2 V c 4 t) ∧ (∀ d, (dat2 V c).before 5 t d = iblk2 V c 5 t)
    ∧ (∀ d, (dat2 V c).before 6 t d = iblk2 V c 6 t) := by
  refine ⟨?_, ?_, ?_, ?_, ?_, ?_, ?_⟩ <;>
    exact fun d => ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  have hb := before2 V c t
  have ha := after2 V c t
  simp only [hb.1, hb.2.1, hb.2.2.1, hb.2.2.2.1, hb.2.2.2.2.1, hb.2.2.2.2.2.1, hb.2.2.2.2.2.2,
    ha.1, ha.2.1, ha.2.2.1, ha.2.2.2.1, ha.2.2.2.2.1, ha.2.2.2.2.2.1, ha.2.2.2.2.2.2, after2_7]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_tile cc2_ngcf_layer_kernel rfl c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  iframe
  isplitl [H7]; · iexists _; iexact H7
  iintro ⟨H0, H1, H2, H3, H4, H5, H6, H7⟩
  iframe

end Cert.Kernel.Layer

end
-- ==== Proof.KShare2.lean ====
import proofs.«136874_j78494822302010_1_alg».proof.Proof.KRegion2

set_option maxRecDepth 16384

noncomputable section

namespace Cert.Kernel.Layer

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

theorem arrays2_eq (V : (c : Dev nD) → (b : Ref sig .tc) → Buf (Elt F) ((c : Thread nD τ).loc b)) (c : Dev nD)
    (Vv : (b : Ref sig .tc) → Buf (Elt F) ((c : Thread nD τ).loc b))
    (Fw : (w : Fin cfg2.W) → Buf (Elt F) ((cfg2.win w).arr.view.loc (c : Thread nD τ))) (hF : ∀ w, Fw w = Vv (Pipeline.arrRef spec2 w)) :
    (Pipeline.arrBufs (Ix := Unit) (Name := ℕ) (U := UR sig nD τ) (Lvl := ℕ) spec2 c Vv ⊢ (dat2 V c).arrays Fw)
      ∧ ((dat2 V c).arrays Fw ⊢ Pipeline.arrBufs (Ix := Unit) (Name := ℕ) (U := UR sig nD τ) (Lvl := ℕ) spec2 c Vv) := by
  obtain rfl := funext hF
  unfold Pipeline.arrBufs Dat.arrays
  rw [bigSep_eq_bigSepL_of_eq [main_arg2, main_v36, main_v38, main_v40, main_v42, main_v44, main_v45] (by decide) (by decide), bigSep_W2]
  simp only [(arr_whole2 0).set_eq_univ, (arr_whole2 1).set_eq_univ, (arr_whole2 2).set_eq_univ, (arr_whole2 3).set_eq_univ,
    (arr_whole2 4).set_eq_univ, (arr_whole2 5).set_eq_univ, (arr_whole2 6).set_eq_univ, (arr_whole2 7).set_eq_univ]
  exact ⟨sep_mono .rfl ((sep_mono (pointsTo_share (PosShare.mem_left_op_right fullShare)).1 .rfl).trans sep_assoc),
    sep_mono .rfl (sep_assoc'.trans (sep_mono (pointsTo_share (PosShare.mem_left_op_right fullShare)).2 .rfl))⟩

end Cert.Kernel.Layer

end
-- ==== Proof.KFold.lean ====
import proofs.«136874_j78494822302010_1_alg».proof.Proof.KShare0
import proofs.«136874_j78494822302010_1_alg».proof.Proof.KShare1
import proofs.«136874_j78494822302010_1_alg».proof.Proof.KShare2
import proofs.«136874_j78494822302010_1_alg».proof.Proof.Gen.Kernel.Regions
set_option maxRecDepth 16384

noncomputable section

namespace Cert.Kernel.Layer

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev W0 (c : Dev nD) : Valuation τ sig (Elt F) := fun b => m (c, b)

abbrev W1 (c : Dev nD) : Valuation τ sig (Elt F) := StableHlo.after hostOps0 (W0 m c)

abbrev R1 : (c : Dev nD) → (b : Ref sig .tc) → Buf (Elt F) ((c : Thread nD τ).loc b) := fun c b => W1 m c b

def W2 (c : Dev nD) : Valuation τ sig (Elt F) :=
  Function.update (W1 m c) (main_v27 : DevRef τ sig) ((dat0 (R1 m) c).arrAt 7 cfg0.N)

abbrev W3 (c : Dev nD) : Valuation τ sig (Elt F) := StableHlo.after hostOps1 (W2 m c)

abbrev R3 : (c : Dev nD) → (b : Ref sig .tc) → Buf (Elt F) ((c : Thread nD τ).loc b) := fun c b => W3 m c b

def W4 (c : Dev nD) : Valuation τ sig (Elt F) :=
  Function.update (W3 m c) (main_v36 : DevRef τ sig) ((dat1 (R3 m) c).arrAt 7 cfg1.N)

abbrev W5 (c : Dev nD) : Valuation τ sig (Elt F) := StableHlo.after hostOps2 (W4 m c)

abbrev R5 : (c : Dev nD) → (b : Ref sig .tc) → Buf (Elt F) ((c : Thread nD τ).loc b) := fun c b => W5 m c b

def W6 (c : Dev nD) : Valuation τ sig (Elt F) :=
  Function.update (W5 m c) (main_v45 : DevRef τ sig) ((dat2 (R5 m) c).arrAt 7 cfg2.N)

abbrev W7 (c : Dev nD) : Valuation τ sig (Elt F) := StableHlo.after hostOps3 (W6 m c)

abbrev W8 (c : Dev nD) : Valuation τ sig (Elt F) := StableHlo.after hostOps3_1 (W7 m c)

abbrev W9 (c : Dev nD) : Valuation τ sig (Elt F) := StableHlo.after hostOps3_2 (W8 m c)

def outs : Outs (F := F) := fun n r c => match n with
  | 2 => W2 m c r
  | 4 => W4 m c r
  | 6 => W6 m c r
  | _ => W0 m c r

-- an update by the value already read there changes nothing
theorem update_idem (W : Valuation τ sig (Elt F)) (r : DevRef τ sig) (x) :
    Function.update W r (Function.update W r x r) = Function.update W r x := by rw [Function.update_self]

theorem V2_eq (c : Dev nD) : V2 m (outs m) c = W2 m c := update_idem ..

theorem V3_eq (c : Dev nD) : V3 m (outs m) c = W3 m c := congrArg (StableHlo.after hostOps1) (V2_eq m c)

theorem V4_eq (c : Dev nD) : V4 m (outs m) c = W4 m c := by
  show Function.update (V3 m (outs m) c) _ _ = _; rw [V3_eq]; exact update_idem ..

theorem V5_eq (c : Dev nD) : V5 m (outs m) c = W5 m c := congrArg (StableHlo.after hostOps2) (V4_eq m c)

theorem V6_eq (c : Dev nD) : V6 m (outs m) c = W6 m c := by
  show Function.update (V5 m (outs m) c) _ _ = _; rw [V5_eq]; exact update_idem ..

theorem V9_eq (c : Dev nD) : V9 m (outs m) c = W9 m c :=
  congrArg (fun W => StableHlo.after hostOps3_2 (StableHlo.after hostOps3_1 (StableHlo.after hostOps3 W))) (V6_eq m c)

def pdats : (p : Fin 3) → (c : Dev nD) → Dat τ (Elt F) Unit ℕ (UR sig nD τ) ℕ (cfgs p) c
  | ⟨0, _⟩ => fun c => dat0 (R1 m) c
  | ⟨1, _⟩ => fun c => dat1 (R3 m) c
  | ⟨2, _⟩ => fun c => dat2 (R5 m) c

section
variable {cfg : Pipeline.Cfg sig Λ₀} {c : Dev nD} (D : Dat τ (Elt F) Unit ℕ (UR sig nD τ) ℕ cfg c)
  (W : Valuation τ sig (Elt F)) (o : Fin cfg.W)

-- a region's arrays at its end are the entry contents updated at the one output array

theorem arrAt_update (hA : ∀ w, D.A w = W (Pipeline.arrRef cfg.spec w))
    (hi : ∀ w, w ≠ o → (cfg.win w).isOut = false ∧ Pipeline.arrRef cfg.spec w ≠ Pipeline.arrRef cfg.spec o) (w : Fin cfg.W) :
    D.arrAt w cfg.N = Function.update W (Pipeline.arrRef cfg.spec o) (D.arrAt o cfg.N) (Pipeline.arrRef cfg.spec w) := by
  by_cases h : w = o
  · subst h; rw [Function.update_self]
  · rw [D.arrAt_in w (hi w h).1, hA, Function.update_of_ne (StableHlo.devRef_ne_of_ne (hi w h).2)]

theorem update_rest (x) (b : Ref sig .tc) (hb : b ∉ Finset.univ.image (Pipeline.arrRef cfg.spec)) :
    Function.update W (Pipeline.arrRef cfg.spec o) x b = W b :=
  Function.update_of_ne (StableHlo.devRef_ne_of_ne fun e => hb (Finset.mem_image.mpr ⟨o, Finset.mem_univ _, e.symm⟩)) _ _
end

theorem hF0 (c : Dev nD) : ∀ w, (dat0 (R1 m) c).arrAt w cfg0.N = W2 m c (Pipeline.arrRef spec0 w) :=
  arrAt_update (dat0 (R1 m) c) (W1 m c) 7 (A_eq0 (R1 m) c) (by decide)

theorem hrest0 (c : Dev nD) : ∀ b, b ∉ Finset.univ.image (Pipeline.arrRef spec0) → W2 m c b = W1 m c b :=
  update_rest (cfg := cfg0) (W1 m c) 7 _

theorem hF1 (c : Dev nD) : ∀ w, (dat1 (R3 m) c).arrAt w cfg1.N = W4 m c (Pipeline.arrRef spec1 w) :=
  arrAt_update (dat1 (R3 m) c) (W3 m c) 7 (A_eq1 (R3 m) c) (by decide)

theorem hrest1 (c : Dev nD) : ∀ b, b ∉ Finset.univ.image (Pipeline.arrRef spec1) → W4 m c b = W3 m c b :=
  update_rest (cfg := cfg1) (W3 m c) 7 _

theorem hF2 (c : Dev nD) : ∀ w, (dat2 (R5 m) c).arrAt w cfg2.N = W6 m c (Pipeline.arrRef spec2 w) :=
  arrAt_update (dat2 (R5 m) c) (W5 m c) 7 (A_eq2 (R5 m) c) (by decide)

theorem hrest2 (c : Dev nD) : ∀ b, b ∉ Finset.univ.image (Pipeline.arrRef spec2) → W6 m c b = W5 m c b :=
  update_rest (cfg := cfg2) (W5 m c) 7 _

end Cert.Kernel.Layer
end
-- ==== Proof.KRun.lean ====
import proofs.«136874_j78494822302010_1_alg».proof.Proof.KFold

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev Rr (c : Dev nD) : sProp (MT nD τ sig Unit (Elt F) ℕ (UR sig nD τ) ℕ) := iprop((∃ r, prngReg c r) ∗ ∃ W, owes (c : Thread nD τ) (0 : CellTallies nD τ sig Unit) W)
abbrev E : Fin 4 → Dev nD → sProp (MT nD τ sig Unit (Elt F) ℕ (UR sig nD τ) ℕ) := fun _ c => Rr c

set_option backward.isDefEq.respectTransparency.types false in
-- region p's segment record, given that the buffers at Wa entail its arrays, its arrays at the end entail the buffers at Wb, and Wb is Wa off the arrays
def regOf (p : Fin 3) (Wa Wb : Dev nD → Valuation τ sig (Elt F)) (win : Pipeline.WinFacts₀ (cfgs p).spec)
    (bp : ∀ w, 0 < ((cfgs p).spec w).block.numel) (sw : ∀ w (s : Fin ((cfgs p).spec w).nbuf), (((cfgs p).spec w).stage s).IsWhole)
    (hb : ∀ c, Pipeline.BodyObligationLoose (pdats m p c) defs₀ 𝒱₀ () Set.univ)
    (h0 : ∀ c t, (pdats m p c).owed t = 0) (hr : ∀ c, (pdats m p c).recorded 0 = Set.univ)
    (hΦ : ∀ c t, (pdats m p c).Φ t = Pipeline.ΦA (cfgs p).spec c)
    (hin : ∀ c, Pipeline.arrBufs (cfgs p).spec c (fun b => Wa c b) ⊢ (pdats m p c).arrays ((pdats m p c).arrAt · 0))
    (hout : ∀ c, (pdats m p c).arrays ((pdats m p c).arrAt · (cfgs p).N) ⊢ Pipeline.arrBufs (cfgs p).spec c fun b => Wb c b)
    (hrest : ∀ c b, b ∉ Finset.univ.image (Pipeline.arrRef (cfgs p).spec) → Wb c b = Wa c b) :
    Pipeline.RegionSeg (pcfgs (F := F)) adm (pdats m) () defs₀ 𝒱₀ L lv p where
  win := win
  block_pos := bp
  stage_whole := sw
  K := PEmpty
  osem k := k.elim
  ho := Pipeline.OwnSemFacts.none _
  hbody := hb
  hwaits := Pipeline.hwaits_of_owed_zero _ _ _ _ L lv p h0
  pre c := iprop(StableHlo.held (c : Thread nD τ) (Pipeline.ucRefs τ sig) (Wa c) ∗ Rr c)
  post c := iprop(StableHlo.held (c : Thread nD τ) (Pipeline.ucRefs τ sig) (Wb c) ∗ Rr c)
  X c := iprop(∃ r, prngReg c r)
  Y c := iprop(∃ r, prngReg c r)
  Z c := Pipeline.unscopedRest (Ix := Unit) (Name := ℕ) (U := UR sig nD τ) (Lvl := ℕ) (cfgs p).spec c fun b => Wa c b
  hentry c := by
    rw [Pipeline.ownSems0_none]
    have hsplit := (Entails.of_eq (Pipeline.unscopedBufs_split₀ (Val := Elt F) (Ix := Unit) (Name := ℕ) (U := UR sig nD τ) (Lvl := ℕ) cfgs p win.arr_unscoped c fun b => Wa c b)).trans (sep_mono (hin c) .rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0, hr]
      icases HO with ⟨%W, HO⟩; iexists W; isplitr; · ipureintro; exact fun _ _ => Or.inl trivial
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin : iprop((pdats m p c).arrays ((pdats m p c).arrAt · (cfgs p).N) ∗ Pipeline.unscopedRest (cfgs p).spec c fun b => Wa c b)
        ⊢ unscopedBufs c fun b => Wb c b := by
      rw [Pipeline.unscopedBufs_split₀ cfgs p win.arr_unscoped c fun b => Wb c b]
      refine sep_mono (hout c) (Entails.of_eq ?_)
      unfold Pipeline.unscopedRest
      exact bigSep_congr fun b hb => by dsimp only; rw [hrest c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

def reg0 : Pipeline.RegionSeg (pcfgs (F := F)) adm (pdats m) () defs₀ 𝒱₀ L lv 0 :=
  regOf m 0 (W1 m) (W2 m) winFacts₀0 block_pos0 stage_whole0 (fun c => (body_obligation0 (R1 m) c).loose) (fun _ _ => rfl)
    (fun _ => rfl) (fun _ _ => rfl) (fun c => (arrays0_eq (R1 m) c (R1 m c) _ fun _ => rfl).1)
    (fun c => (arrays0_eq (R1 m) c (fun b => W2 m c b) _ (hF0 m c)).2) (hrest0 m)

def reg1 : Pipeline.RegionSeg (pcfgs (F := F)) adm (pdats m) () defs₀ 𝒱₀ L lv 1 :=
  regOf m 1 (W3 m) (W4 m) winFacts₀1 block_pos1 stage_whole1 (fun c => (body_obligation1 (R3 m) c).loose) (fun _ _ => rfl)
    (fun _ => rfl) (fun _ _ => rfl) (fun c => (arrays1_eq (R3 m) c (R3 m c) _ fun _ => rfl).1)
    (fun c => (arrays1_eq (R3 m) c (fun b => W4 m c b) _ (hF1 m c)).2) (hrest1 m)

def reg2 : Pipeline.RegionSeg (pcfgs (F := F)) adm (pdats m) () defs₀ 𝒱₀ L lv 2 :=
  regOf m 2 (W5 m) (W6 m) winFacts₀2 block_pos2 stage_whole2 (fun c => (body_obligation2 (R5 m) c).loose) (fun _ _ => rfl)
    (fun _ => rfl) (fun _ _ => rfl) (fun c => (arrays2_eq (R5 m) c (R5 m c) _ fun _ => rfl).1)
    (fun c => (arrays2_eq (R5 m) c (fun b => W6 m c b) _ (hF2 m c)).2) (hrest2 m)

abbrev u₀ : UR sig nD τ := initOf (Pipeline.cells cfgs cellOf_inj) (Pipeline.launchToks cfgs cellOf_inj)

theorem hu₀ : (ownU (u₀) : sProp (MT nD τ sig Unit (Elt F) ℕ (UR sig nD τ) ℕ)) ⊢ |={Set.univ}=> iprop(BI.own (emb₁ (initOf (Pipeline.cells cfgs cellOf_inj) (Pipeline.launchToks cfgs cellOf_inj))) ∗ bigSep Finset.univ fun _ : Dev nD => (BI.emp : sProp (MT nD τ sig Unit (Elt F) ℕ (UR sig nD τ) ℕ))) := by
  rw [BI.bigSep_emp_const]; unfold ownU
  iintro Hu; imodintro
  isplitl [Hu]
  · iexact Hu
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp (MT nD τ sig Unit (Elt F) ℕ (UR sig nD τ) ℕ)))) ∗ levAts L lv)
      ⊢ (|={Set.univ}=> bigSep Finset.univ (E (F := F) 0) : sProp (MT nD τ sig Unit (Elt F) ℕ (UR sig nD τ) ℕ)) := by
  refine Pipeline.initEach L lv fun c => ?_
  iintro ⟨⟨-, HO, -, Hp, -⟩, -⟩
  imodintro
  isplitl [Hp]; · iexists _; iexact Hp
  iexists ∅; iexact HO

theorem hE3 (c : Dev nD) : E (F := F) 3 c ⊢ (iprop(∃ W, owes (c : Thread nD τ) (0 : CellTallies nD τ sig Unit) W) : sProp (MT nD τ sig Unit (Elt F) ℕ (UR sig nD τ) ℕ)) := by
  iintro ⟨-, HO⟩; iexact HO

theorem hpre0 (c : Dev nD) : iprop(StableHlo.held (c : Thread nD τ) (Pipeline.ucRefs τ sig) (V1 m c) ∗ E 0 c) ⊢ (reg0 m).pre c := .rfl

theorem hpost0 (c : Dev nD) : (reg0 m).post c ⊢ iprop(StableHlo.held (c : Thread nD τ) (Pipeline.ucRefs τ sig) (V2 m (outs m) c) ∗ E 1 c) := by
  rw [V2_eq]; exact .rfl

theorem hpre1 (c : Dev nD) : iprop(StableHlo.held (c : Thread nD τ) (Pipeline.ucRefs τ sig) (V3 m (outs m) c) ∗ E 1 c) ⊢ (reg1 m).pre c := by
  rw [V3_eq]; exact .rfl

theorem hpost1 (c : Dev nD) : (reg1 m).post c ⊢ iprop(StableHlo.held (c : Thread nD τ) (Pipeline.ucRefs τ sig) (V4 m (outs m) c) ∗ E 2 c) := by
  rw [V4_eq]; exact .rfl

theorem hpre2 (c : Dev nD) : iprop(StableHlo.held (c : Thread nD τ) (Pipeline.ucRefs τ sig) (V5 m (outs m) c) ∗ E 2 c) ⊢ (reg2 m).pre c := by
  rw [V5_eq]; exact .rfl

theorem hpost2 (c : Dev nD) : (reg2 m).post c ⊢ iprop(StableHlo.held (c : Thread nD τ) (Pipeline.ucRefs τ sig) (V6 m (outs m) c) ∗ E 3 c) := by
  rw [V6_eq]; exact .rfl

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (m := m) (EP := emb₁) (ι := ()) (𝒱₀ := 𝒱₀) (L := L) (lv := lv) (hL := fun _ _ => rfl) (ρ := ρ) (outs := outs m) (pdats := pdats m)
    (O₀ := 0) (G := fun _ => iprop(emp)) (u₀ := u₀) (hu₀ := hu₀) (E := E) (hE0 := hE0 ρ) (hE3 := hE3)
    (R0 := reg0 m) (hpre0 := hpre0 m) (hpost0 := hpost0 m) (R1 := reg1 m) (hpre1 := hpre1 m) (hpost1 := hpost1 m)
    (R2 := reg2 m) (hpre2 := hpre2 m) (hpost2 := hpost2 m)

end Cert.Kernel.Layer
end
-- ==== Proof.KITile.lean ====
import proofs.«136874_j78494822302010_1_alg».proof.Proof.Gen.KernelIdeal.Launch
import proofs.«136874_j78494822302010_1_alg».proof.Proof.Gen.KernelIdeal.Skeleton
import proofs.«136874_j78494822302010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev rAdj : Rect S1x512x4096 := Rect.unit (s := S1x512x4096) ![0, 0, 0] S1x512x4096.size inb_S1x512x4096_S1x512x4096_0_0_0
abbrev rFull : Rect S1x4096x64 := Rect.unit (s := S1x4096x64) ![0, 0, 0] S1x4096x64.size inb_S1x4096x64_S1x4096x64_0_0_0
abbrev rTile : Rect S1x512x64 := Rect.unit (s := S1x512x64) ![0, 0, 0] S1x512x64.size inb_S1x512x64_S1x512x64_0_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- The 512 × 64 output tile as a function of the seven input blocks: the sum of the two rectified branches. -/
def outTile (x0 : Vec F S1x512x4096 .f32) (x1 : Vec F S1x4096x64 .f32) (x2 : Vec F S1x512x64 .f32)
    (x3 : Vec F S64x64 .f32) (x4 : Vec F S1x64 .f32) (x5 : Vec F S64x64 .f32) (x6 : Vec F S1x64 .f32) : Vec F S1x512x64 .f32 :=
  View.canon [⟨rTile, k0_pay1
    (k0_pay3 (View.ld x0 rAdj) (View.ld x1 rFull) (View.ld x3 rW) (View.ld x4 rB))
    (k0_pay4 (View.ld x0 rAdj) (View.ld x1 rFull) (View.ld x5 rW) (View.ld x6 rB) (View.ld x2 rTile))
    (k0_pay5 (View.ld x0 rAdj) (View.ld x1 rFull) (View.ld x5 rW) (View.ld x6 rB) (View.ld x2 rTile))⟩]

theorem cover_tile (p0 : Vec F S1x512x64 .f32) (y : S1x512x64.Idx) :
    ∃ pc ∈ ([⟨rTile, p0⟩] : List (View.Piece (Elt F) S1x512x64 .f32)), y ∈ pc.1.set :=
  View.cover_of_tiled [⟨rTile, p0⟩] S1x512x64.size (by rfl) y

set_option maxHeartbeats 4000000 in
/-- The three layer calls have one body: proved once, for any program equal to the first call's. -/
theorem sound_tile (prog : type_of% (cc0_ngcf_layer_kernel (F := F))) (hprog : prog = cc0_ngcf_layer_kernel) (c : Dev nD) (E : Set ℕ) (i : grid0.Coords)
    (arg2 : Memref sig .tc .vmem S1x512x4096 .f32) (harg2 : arg2.IsWhole) (arg3 : Memref sig .tc .vmem S1x4096x64 .f32) (harg3 : arg3.IsWhole)
    (arg4 : Memref sig .tc .vmem S1x512x64 .f32) (harg4 : arg4.IsWhole) (arg5 : Memref sig .tc .vmem S64x64 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole) (arg9 : Memref sig .tc .vmem S1x512x64 .f32) (harg9 : arg9.IsWhole)
    (x0 : Vec F S1x512x4096 .f32) (x1 : Vec F S1x4096x64 .f32) (x2 : Vec F S1x512x64 .f32)
    (x3 : Vec F S64x64 .f32) (x4 : Vec F S1x64 .f32) (x5 : Vec F S64x64 .f32) (x6 : Vec F S1x64 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outTile x0 x1 x2 x3 x4 x5 x6)) -∗ K ⟨⟩))
      ⊢ wp frame (wpE (defs₀ (F := F)) Variants.none c none) E (prog i arg2 harg2 arg3 harg3 arg4 harg4 arg5 harg5 arg6 harg6 arg7 harg7 arg8 harg8 arg9 harg9) K := by
  subst hprog
  simp only [cc0_ngcf_layer_kernel_eq_skeleton]; unfold cc0_ngcf_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_tile _)

end Cert.KernelIdeal.Layer

end
-- ==== Proof.KIRegion0.lean ====
import proofs.«136874_j78494822302010_1_alg».proof.Proof.KITile

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The part of window w's array that its index map selects at grid point t. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outTile (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by dsimp only [dat0]

theorem after0_7 (c : Dev nD) (t : Fin cfg0.N) : (dat0 V c).after 7 t
    = outTile (iblk0 V c 0 t) (iblk0 V c 1 t) (iblk0 V c 2 t) (iblk0 V c 3 t) (iblk0 V c 4 t) (iblk0 V c 5 t) (iblk0 V c 6 t) := by dsimp only [dat0]

theorem after0 (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t
    ∧ (dat0 V c).after 4 t = iblk0 V c 4 t ∧ (dat0 V c).after 5 t = iblk0 V c 5 t ∧ (dat0 V c).after 6 t = iblk0 V c 6 t := by
  refine ⟨?_, ?_, ?_, ?_, ?_, ?_, ?_⟩ <;> dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
    ∧ (∀ d, (dat0 V c).before 3 t d = iblk0 V c 3 t) ∧ (∀ d, (dat0 V c).before 4 t d = iblk0 V c 4 t) ∧ (∀ d, (dat0 V c).before 5 t d = iblk0 V c 5 t)
    ∧ (∀ d, (dat0 V c).before 6 t d = iblk0 V c 6 t) := by
  refine ⟨?_, ?_, ?_, ?_, ?_, ?_, ?_⟩ <;>
    exact fun d => ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  have hb := before0 V c t
  have ha := after0 V c t
  simp only [hb.1, hb.2.1, hb.2.2.1, hb.2.2.2.1, hb.2.2.2.2.1, hb.2.2.2.2.2.1, hb.2.2.2.2.2.2,
    ha.1, ha.2.1, ha.2.2.1, ha.2.2.2.1, ha.2.2.2.2.1, ha.2.2.2.2.2.1, ha.2.2.2.2.2.2, after0_7]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_tile cc0_ngcf_layer_kernel rfl c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  iframe
  isplitl [H7]; · iexists _; iexact H7
  iintro ⟨H0, H1, H2, H3, H4, H5, H6, H7⟩
  iframe

end Cert.KernelIdeal.Layer

end
-- ==== Proof.KIShare0.lean ====
import proofs.«136874_j78494822302010_1_alg».proof.Proof.KIRegion0

set_option maxRecDepth 16384

noncomputable section

namespace Cert.KernelIdeal.Layer

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

theorem arrays0_eq (V : (c : Dev nD) → (b : Ref sig .tc) → Buf (Elt F) ((c : Thread nD τ).loc b)) (c : Dev nD)
    (Vv : (b : Ref sig .tc) → Buf (Elt F) ((c : Thread nD τ).loc b))
    (Fw : (w : Fin cfg0.W) → Buf (Elt F) ((cfg0.win w).arr.view.loc (c : Thread nD τ))) (hF : ∀ w, Fw w = Vv (Pipeline.arrRef spec0 w)) :
    (Pipeline.arrBufs (Ix := Unit) (Name := ℕ) (U := UR sig nD τ) (Lvl := ℕ) spec0 c Vv ⊢ (dat0 V c).arrays Fw)
      ∧ ((dat0 V c).arrays Fw ⊢ Pipeline.arrBufs (Ix := Unit) (Name := ℕ) (U := UR sig nD τ) (Lvl := ℕ) spec0 c Vv) := by
  obtain rfl := funext hF
  unfold Pipeline.arrBufs Dat.arrays
  rw [bigSep_eq_bigSepL_of_eq [main_arg2, main_v14, main_v20, main_v22, main_v24, main_v26, main_v27] (by decide) (by decide), bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ]
  exact ⟨sep_mono .rfl ((sep_mono (pointsTo_share (PosShare.mem_left_op_right fullShare)).1 .rfl).trans sep_assoc),
    sep_mono .rfl (sep_assoc'.trans (sep_mono (pointsTo_share (PosShare.mem_left_op_right fullShare)).2 .rfl))⟩

end Cert.KernelIdeal.Layer

end
-- ==== Proof.KIRegion1.lean ====
import proofs.«136874_j78494822302010_1_alg».proof.Proof.KITile

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The part of window w's array that its index map selects at grid point t. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outTile (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by dsimp only [dat1]

theorem after1_7 (c : Dev nD) (t : Fin cfg1.N) : (dat1 V c).after 7 t
    = outTile (iblk1 V c 0 t) (iblk1 V c 1 t) (iblk1 V c 2 t) (iblk1 V c 3 t) (iblk1 V c 4 t) (iblk1 V c 5 t) (iblk1 V c 6 t) := by dsimp only [dat1]

theorem after1 (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t
    ∧ (dat1 V c).after 4 t = iblk1 V c 4 t ∧ (dat1 V c).after 5 t = iblk1 V c 5 t ∧ (dat1 V c).after 6 t = iblk1 V c 6 t := by
  refine ⟨?_, ?_, ?_, ?_, ?_, ?_, ?_⟩ <;> dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
    ∧ (∀ d, (dat1 V c).before 3 t d = iblk1 V c 3 t) ∧ (∀ d, (dat1 V c).before 4 t d = iblk1 V c 4 t) ∧ (∀ d, (dat1 V c).before 5 t d = iblk1 V c 5 t)
    ∧ (∀ d, (dat1 V c).before 6 t d = iblk1 V c 6 t) := by
  refine ⟨?_, ?_, ?_, ?_, ?_, ?_, ?_⟩ <;>
    exact fun d => ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  have hb := before1 V c t
  have ha := after1 V c t
  simp only [hb.1, hb.2.1, hb.2.2.1, hb.2.2.2.1, hb.2.2.2.2.1, hb.2.2.2.2.2.1, hb.2.2.2.2.2.2,
    ha.1, ha.2.1, ha.2.2.1, ha.2.2.2.1, ha.2.2.2.2.1, ha.2.2.2.2.2.1, ha.2.2.2.2.2.2, after1_7]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_tile cc1_ngcf_layer_kernel rfl c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  iframe
  isplitl [H7]; · iexists _; iexact H7
  iintro ⟨H0, H1, H2, H3, H4, H5, H6, H7⟩
  iframe

end Cert.KernelIdeal.Layer

end
-- ==== Proof.KIShare1.lean ====
import proofs.«136874_j78494822302010_1_alg».proof.Proof.KIRegion1

set_option maxRecDepth 16384

noncomputable section

namespace Cert.KernelIdeal.Layer

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

theorem arrays1_eq (V : (c : Dev nD) → (b : Ref sig .tc) → Buf (Elt F) ((c : Thread nD τ).loc b)) (c : Dev nD)
    (Vv : (b : Ref sig .tc) → Buf (Elt F) ((c : Thread nD τ).loc b))
    (Fw : (w : Fin cfg1.W) → Buf (Elt F) ((cfg1.win w).arr.view.loc (c : Thread nD τ))) (hF : ∀ w, Fw w = Vv (Pipeline.arrRef spec1 w)) :
    (Pipeline.arrBufs (Ix := Unit) (Name := ℕ) (U := UR sig nD τ) (Lvl := ℕ) spec1 c Vv ⊢ (dat1 V c).arrays Fw)
      ∧ ((dat1 V c).arrays Fw ⊢ Pipeline.arrBufs (Ix := Unit) (Name := ℕ) (U := UR sig nD τ) (Lvl := ℕ) spec1 c Vv) := by
  obtain rfl := funext hF
  unfold Pipeline.arrBufs Dat.arrays
  rw [bigSep_eq_bigSepL_of_eq [main_arg2, main_v27, main_v29, main_v31, main_v33, main_v35, main_v36] (by decide) (by decide), bigSep_W1]
  simp only [(arr_whole1 0).set_eq_univ, (arr_whole1 1).set_eq_univ, (arr_whole1 2).set_eq_univ, (arr_whole1 3).set_eq_univ,
    (arr_whole1 4).set_eq_univ, (arr_whole1 5).set_eq_univ, (arr_whole1 6).set_eq_univ, (arr_whole1 7).set_eq_univ]
  exact ⟨sep_mono .rfl ((sep_mono (pointsTo_share (PosShare.mem_left_op_right fullShare)).1 .rfl).trans sep_assoc),
    sep_mono .rfl (sep_assoc'.trans (sep_mono (pointsTo_share (PosShare.mem_left_op_right fullShare)).2 .rfl))⟩

end Cert.KernelIdeal.Layer

end
-- ==== Proof.KIRegion2.lean ====
import proofs.«136874_j78494822302010_1_alg».proof.Proof.KITile

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The part of window w's array that its index map selects at grid point t. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outTile (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by dsimp only [dat2]

theorem after2_7 (c : Dev nD) (t : Fin cfg2.N) : (dat2 V c).after 7 t
    = outTile (iblk2 V c 0 t) (iblk2 V c 1 t) (iblk2 V c 2 t) (iblk2 V c 3 t) (iblk2 V c 4 t) (iblk2 V c 5 t) (iblk2 V c 6 t) := by dsimp only [dat2]

theorem after2 (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t
    ∧ (dat2 V c).after 4 t = iblk2 V c 4 t ∧ (dat2 V c).after 5 t = iblk2 V c 5 t ∧ (dat2 V c).after 6 t = iblk2 V c 6 t := by
  refine ⟨?_, ?_, ?_, ?_, ?_, ?_, ?_⟩ <;> dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
    ∧ (∀ d, (dat2 V c).before 3 t d = iblk2 V c 3 t) ∧ (∀ d, (dat2 V c).before 4 t d = iblk2 V c 4 t) ∧ (∀ d, (dat2 V c).before 5 t d = iblk2 V c 5 t)
    ∧ (∀ d, (dat2 V c).before 6 t d = iblk2 V c 6 t) := by
  refine ⟨?_, ?_, ?_, ?_, ?_, ?_, ?_⟩ <;>
    exact fun d => ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  have hb := before2 V c t
  have ha := after2 V c t
  simp only [hb.1, hb.2.1, hb.2.2.1, hb.2.2.2.1, hb.2.2.2.2.1, hb.2.2.2.2.2.1, hb.2.2.2.2.2.2,
    ha.1, ha.2.1, ha.2.2.1, ha.2.2.2.1, ha.2.2.2.2.1, ha.2.2.2.2.2.1, ha.2.2.2.2.2.2, after2_7]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_tile cc2_ngcf_layer_kernel rfl c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  iframe
  isplitl [H7]; · iexists _; iexact H7
  iintro ⟨H0, H1, H2, H3, H4, H5, H6, H7⟩
  iframe

end Cert.KernelIdeal.Layer

end
-- ==== Proof.KIShare2.lean ====
import proofs.«136874_j78494822302010_1_alg».proof.Proof.KIRegion2

set_option maxRecDepth 16384

noncomputable section

namespace Cert.KernelIdeal.Layer

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

theorem arrays2_eq (V : (c : Dev nD) → (b : Ref sig .tc) → Buf (Elt F) ((c : Thread nD τ).loc b)) (c : Dev nD)
    (Vv : (b : Ref sig .tc) → Buf (Elt F) ((c : Thread nD τ).loc b))
    (Fw : (w : Fin cfg2.W) → Buf (Elt F) ((cfg2.win w).arr.view.loc (c : Thread nD τ))) (hF : ∀ w, Fw w = Vv (Pipeline.arrRef spec2 w)) :
    (Pipeline.arrBufs (Ix := Unit) (Name := ℕ) (U := UR sig nD τ) (Lvl := ℕ) spec2 c Vv ⊢ (dat2 V c).arrays Fw)
      ∧ ((dat2 V c).arrays Fw ⊢ Pipeline.arrBufs (Ix := Unit) (Name := ℕ) (U := UR sig nD τ) (Lvl := ℕ) spec2 c Vv) := by
  obtain rfl := funext hF
  unfold Pipeline.arrBufs Dat.arrays
  rw [bigSep_eq_bigSepL_of_eq [main_arg2, main_v36, main_v38, main_v40, main_v42, main_v44, main_v45] (by decide) (by decide), bigSep_W2]
  simp only [(arr_whole2 0).set_eq_univ, (arr_whole2 1).set_eq_univ, (arr_whole2 2).set_eq_univ, (arr_whole2 3).set_eq_univ,
    (arr_whole2 4).set_eq_univ, (arr_whole2 5).set_eq_univ, (arr_whole2 6).set_eq_univ, (arr_whole2 7).set_eq_univ]
  exact ⟨sep_mono .rfl ((sep_mono (pointsTo_share (PosShare.mem_left_op_right fullShare)).1 .rfl).trans sep_assoc),
    sep_mono .rfl (sep_assoc'.trans (sep_mono (pointsTo_share (PosShare.mem_left_op_right fullShare)).2 .rfl))⟩

end Cert.KernelIdeal.Layer

end
-- ==== Proof.KIFold.lean ====
import proofs.«136874_j78494822302010_1_alg».proof.Proof.KIShare0
import proofs.«136874_j78494822302010_1_alg».proof.Proof.KIShare1
import proofs.«136874_j78494822302010_1_alg».proof.Proof.KIShare2
import proofs.«136874_j78494822302010_1_alg».proof.Proof.Gen.KernelIdeal.Regions
set_option maxRecDepth 16384

noncomputable section

namespace Cert.KernelIdeal.Layer

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev W0 (c : Dev nD) : Valuation τ sig (Elt F) := fun b => m (c, b)

abbrev W1 (c : Dev nD) : Valuation τ sig (Elt F) := StableHlo.after hostOps0 (W0 m c)

abbrev R1 : (c : Dev nD) → (b : Ref sig .tc) → Buf (Elt F) ((c : Thread nD τ).loc b) := fun c b => W1 m c b

def W2 (c : Dev nD) : Valuation τ sig (Elt F) :=
  Function.update (W1 m c) (main_v27 : DevRef τ sig) ((dat0 (R1 m) c).arrAt 7 cfg0.N)

abbrev W3 (c : Dev nD) : Valuation τ sig (Elt F) := StableHlo.after hostOps1 (W2 m c)

abbrev R3 : (c : Dev nD) → (b : Ref sig .tc) → Buf (Elt F) ((c : Thread nD τ).loc b) := fun c b => W3 m c b

def W4 (c : Dev nD) : Valuation τ sig (Elt F) :=
  Function.update (W3 m c) (main_v36 : DevRef τ sig) ((dat1 (R3 m) c).arrAt 7 cfg1.N)

abbrev W5 (c : Dev nD) : Valuation τ sig (Elt F) := StableHlo.after hostOps2 (W4 m c)

abbrev R5 : (c : Dev nD) → (b : Ref sig .tc) → Buf (Elt F) ((c : Thread nD τ).loc b) := fun c b => W5 m c b

def W6 (c : Dev nD) : Valuation τ sig (Elt F) :=
  Function.update (W5 m c) (main_v45 : DevRef τ sig) ((dat2 (R5 m) c).arrAt 7 cfg2.N)

abbrev W7 (c : Dev nD) : Valuation τ sig (Elt F) := StableHlo.after hostOps3 (W6 m c)

abbrev W8 (c : Dev nD) : Valuation τ sig (Elt F) := StableHlo.after hostOps3_1 (W7 m c)

abbrev W9 (c : Dev nD) : Valuation τ sig (Elt F) := StableHlo.after hostOps3_2 (W8 m c)

def outs : Outs (F := F) := fun n r c => match n with
  | 2 => W2 m c r
  | 4 => W4 m c r
  | 6 => W6 m c r
  | _ => W0 m c r

-- an update by the value already read there changes nothing
theorem update_idem (W : Valuation τ sig (Elt F)) (r : DevRef τ sig) (x) :
    Function.update W r (Function.update W r x r) = Function.update W r x := by rw [Function.update_self]

theorem V2_eq (c : Dev nD) : V2 m (outs m) c = W2 m c := update_idem ..

theorem V3_eq (c : Dev nD) : V3 m (outs m) c = W3 m c := congrArg (StableHlo.after hostOps1) (V2_eq m c)

theorem V4_eq (c : Dev nD) : V4 m (outs m) c = W4 m c := by
  show Function.update (V3 m (outs m) c) _ _ = _; rw [V3_eq]; exact update_idem ..

theorem V5_eq (c : Dev nD) : V5 m (outs m) c = W5 m c := congrArg (StableHlo.after hostOps2) (V4_eq m c)

theorem V6_eq (c : Dev nD) : V6 m (outs m) c = W6 m c := by
  show Function.update (V5 m (outs m) c) _ _ = _; rw [V5_eq]; exact update_idem ..

theorem V9_eq (c : Dev nD) : V9 m (outs m) c = W9 m c :=
  congrArg (fun W => StableHlo.after hostOps3_2 (StableHlo.after hostOps3_1 (StableHlo.after hostOps3 W))) (V6_eq m c)

def pdats : (p : Fin 3) → (c : Dev nD) → Dat τ (Elt F) Unit ℕ (UR sig nD τ) ℕ (cfgs p) c
  | ⟨0, _⟩ => fun c => dat0 (R1 m) c
  | ⟨1, _⟩ => fun c => dat1 (R3 m) c
  | ⟨2, _⟩ => fun c => dat2 (R5 m) c

section
variable {cfg : Pipeline.Cfg sig Λ₀} {c : Dev nD} (D : Dat τ (Elt F) Unit ℕ (UR sig nD τ) ℕ cfg c)
  (W : Valuation τ sig (Elt F)) (o : Fin cfg.W)

-- a region's arrays at its end are the entry contents updated at the one output array

theorem arrAt_update (hA : ∀ w, D.A w = W (Pipeline.arrRef cfg.spec w))
    (hi : ∀ w, w ≠ o → (cfg.win w).isOut = false ∧ Pipeline.arrRef cfg.spec w ≠ Pipeline.arrRef cfg.spec o) (w : Fin cfg.W) :
    D.arrAt w cfg.N = Function.update W (Pipeline.arrRef cfg.spec o) (D.arrAt o cfg.N) (Pipeline.arrRef cfg.spec w) := by
  by_cases h : w = o
  · subst h; rw [Function.update_self]
  · rw [D.arrAt_in w (hi w h).1, hA, Function.update_of_ne (StableHlo.devRef_ne_of_ne (hi w h).2)]

theorem update_rest (x) (b : Ref sig .tc) (hb : b ∉ Finset.univ.image (Pipeline.arrRef cfg.spec)) :
    Function.update W (Pipeline.arrRef cfg.spec o) x b = W b :=
  Function.update_of_ne (StableHlo.devRef_ne_of_ne fun e => hb (Finset.mem_image.mpr ⟨o, Finset.mem_univ _, e.symm⟩)) _ _
end

theorem hF0 (c : Dev nD) : ∀ w, (dat0 (R1 m) c).arrAt w cfg0.N = W2 m c (Pipeline.arrRef spec0 w) :=
  arrAt_update (dat0 (R1 m) c) (W1 m c) 7 (A_eq0 (R1 m) c) (by decide)

theorem hrest0 (c : Dev nD) : ∀ b, b ∉ Finset.univ.image (Pipeline.arrRef spec0) → W2 m c b = W1 m c b :=
  update_rest (cfg := cfg0) (W1 m c) 7 _

theorem hF1 (c : Dev nD) : ∀ w, (dat1 (R3 m) c).arrAt w cfg1.N = W4 m c (Pipeline.arrRef spec1 w) :=
  arrAt_update (dat1 (R3 m) c) (W3 m c) 7 (A_eq1 (R3 m) c) (by decide)

theorem hrest1 (c : Dev nD) : ∀ b, b ∉ Finset.univ.image (Pipeline.arrRef spec1) → W4 m c b = W3 m c b :=
  update_rest (cfg := cfg1) (W3 m c) 7 _

theorem hF2 (c : Dev nD) : ∀ w, (dat2 (R5 m) c).arrAt w cfg2.N = W6 m c (Pipeline.arrRef spec2 w) :=
  arrAt_update (dat2 (R5 m) c) (W5 m c) 7 (A_eq2 (R5 m) c) (by decide)

theorem hrest2 (c : Dev nD) : ∀ b, b ∉ Finset.univ.image (Pipeline.arrRef spec2) → W6 m c b = W5 m c b :=
  update_rest (cfg := cfg2) (W5 m c) 7 _

end Cert.KernelIdeal.Layer
end
-- ==== Proof.KIRun.lean ====
import proofs.«136874_j78494822302010_1_alg».proof.Proof.KIFold

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev Rr (c : Dev nD) : sProp (MT nD τ sig Unit (Elt F) ℕ (UR sig nD τ) ℕ) := iprop((∃ r, prngReg c r) ∗ ∃ W, owes (c : Thread nD τ) (0 : CellTallies nD τ sig Unit) W)
abbrev E : Fin 4 → Dev nD → sProp (MT nD τ sig Unit (Elt F) ℕ (UR sig nD τ) ℕ) := fun _ c => Rr c

set_option backward.isDefEq.respectTransparency.types false in
-- region p's segment record, given that the buffers at Wa entail its arrays, its arrays at the end entail the buffers at Wb, and Wb is Wa off the arrays
def regOf (p : Fin 3) (Wa Wb : Dev nD → Valuation τ sig (Elt F)) (win : Pipeline.WinFacts₀ (cfgs p).spec)
    (bp : ∀ w, 0 < ((cfgs p).spec w).block.numel) (sw : ∀ w (s : Fin ((cfgs p).spec w).nbuf), (((cfgs p).spec w).stage s).IsWhole)
    (hb : ∀ c, Pipeline.BodyObligationLoose (pdats m p c) defs₀ 𝒱₀ () Set.univ)
    (h0 : ∀ c t, (pdats m p c).owed t = 0) (hr : ∀ c, (pdats m p c).recorded 0 = Set.univ)
    (hΦ : ∀ c t, (pdats m p c).Φ t = Pipeline.ΦA (cfgs p).spec c)
    (hin : ∀ c, Pipeline.arrBufs (cfgs p).spec c (fun b => Wa c b) ⊢ (pdats m p c).arrays ((pdats m p c).arrAt · 0))
    (hout : ∀ c, (pdats m p c).arrays ((pdats m p c).arrAt · (cfgs p).N) ⊢ Pipeline.arrBufs (cfgs p).spec c fun b => Wb c b)
    (hrest : ∀ c b, b ∉ Finset.univ.image (Pipeline.arrRef (cfgs p).spec) → Wb c b = Wa c b) :
    Pipeline.RegionSeg (pcfgs (F := F)) adm (pdats m) () defs₀ 𝒱₀ L lv p where
  win := win
  block_pos := bp
  stage_whole := sw
  K := PEmpty
  osem k := k.elim
  ho := Pipeline.OwnSemFacts.none _
  hbody := hb
  hwaits := Pipeline.hwaits_of_owed_zero _ _ _ _ L lv p h0
  pre c := iprop(StableHlo.held (c : Thread nD τ) (Pipeline.ucRefs τ sig) (Wa c) ∗ Rr c)
  post c := iprop(StableHlo.held (c : Thread nD τ) (Pipeline.ucRefs τ sig) (Wb c) ∗ Rr c)
  X c := iprop(∃ r, prngReg c r)
  Y c := iprop(∃ r, prngReg c r)
  Z c := Pipeline.unscopedRest (Ix := Unit) (Name := ℕ) (U := UR sig nD τ) (Lvl := ℕ) (cfgs p).spec c fun b => Wa c b
  hentry c := by
    rw [Pipeline.ownSems0_none]
    have hsplit := (Entails.of_eq (Pipeline.unscopedBufs_split₀ (Val := Elt F) (Ix := Unit) (Name := ℕ) (U := UR sig nD τ) (Lvl := ℕ) cfgs p win.arr_unscoped c fun b => Wa c b)).trans (sep_mono (hin c) .rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0, hr]
      icases HO with ⟨%W, HO⟩; iexists W; isplitr; · ipureintro; exact fun _ _ => Or.inl trivial
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin : iprop((pdats m p c).arrays ((pdats m p c).arrAt · (cfgs p).N) ∗ Pipeline.unscopedRest (cfgs p).spec c fun b => Wa c b)
        ⊢ unscopedBufs c fun b => Wb c b := by
      rw [Pipeline.unscopedBufs_split₀ cfgs p win.arr_unscoped c fun b => Wb c b]
      refine sep_mono (hout c) (Entails.of_eq ?_)
      unfold Pipeline.unscopedRest
      exact bigSep_congr fun b hb => by dsimp only; rw [hrest c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

def reg0 : Pipeline.RegionSeg (pcfgs (F := F)) adm (pdats m) () defs₀ 𝒱₀ L lv 0 :=
  regOf m 0 (W1 m) (W2 m) winFacts₀0 block_pos0 stage_whole0 (fun c => (body_obligation0 (R1 m) c).loose) (fun _ _ => rfl)
    (fun _ => rfl) (fun _ _ => rfl) (fun c => (arrays0_eq (R1 m) c (R1 m c) _ fun _ => rfl).1)
    (fun c => (arrays0_eq (R1 m) c (fun b => W2 m c b) _ (hF0 m c)).2) (hrest0 m)

def reg1 : Pipeline.RegionSeg (pcfgs (F := F)) adm (pdats m) () defs₀ 𝒱₀ L lv 1 :=
  regOf m 1 (W3 m) (W4 m) winFacts₀1 block_pos1 stage_whole1 (fun c => (body_obligation1 (R3 m) c).loose) (fun _ _ => rfl)
    (fun _ => rfl) (fun _ _ => rfl) (fun c => (arrays1_eq (R3 m) c (R3 m c) _ fun _ => rfl).1)
    (fun c => (arrays1_eq (R3 m) c (fun b => W4 m c b) _ (hF1 m c)).2) (hrest1 m)

def reg2 : Pipeline.RegionSeg (pcfgs (F := F)) adm (pdats m) () defs₀ 𝒱₀ L lv 2 :=
  regOf m 2 (W5 m) (W6 m) winFacts₀2 block_pos2 stage_whole2 (fun c => (body_obligation2 (R5 m) c).loose) (fun _ _ => rfl)
    (fun _ => rfl) (fun _ _ => rfl) (fun c => (arrays2_eq (R5 m) c (R5 m c) _ fun _ => rfl).1)
    (fun c => (arrays2_eq (R5 m) c (fun b => W6 m c b) _ (hF2 m c)).2) (hrest2 m)

abbrev u₀ : UR sig nD τ := initOf (Pipeline.cells cfgs cellOf_inj) (Pipeline.launchToks cfgs cellOf_inj)

theorem hu₀ : (ownU (u₀) : sProp (MT nD τ sig Unit (Elt F) ℕ (UR sig nD τ) ℕ)) ⊢ |={Set.univ}=> iprop(BI.own (emb₁ (initOf (Pipeline.cells cfgs cellOf_inj) (Pipeline.launchToks cfgs cellOf_inj))) ∗ bigSep Finset.univ fun _ : Dev nD => (BI.emp : sProp (MT nD τ sig Unit (Elt F) ℕ (UR sig nD τ) ℕ))) := by
  rw [BI.bigSep_emp_const]; unfold ownU
  iintro Hu; imodintro
  isplitl [Hu]
  · iexact Hu
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp (MT nD τ sig Unit (Elt F) ℕ (UR sig nD τ) ℕ)))) ∗ levAts L lv)
      ⊢ (|={Set.univ}=> bigSep Finset.univ (E (F := F) 0) : sProp (MT nD τ sig Unit (Elt F) ℕ (UR sig nD τ) ℕ)) := by
  refine Pipeline.initEach L lv fun c => ?_
  iintro ⟨⟨-, HO, -, Hp, -⟩, -⟩
  imodintro
  isplitl [Hp]; · iexists _; iexact Hp
  iexists ∅; iexact HO

theorem hE3 (c : Dev nD) : E (F := F) 3 c ⊢ (iprop(∃ W, owes (c : Thread nD τ) (0 : CellTallies nD τ sig Unit) W) : sProp (MT nD τ sig Unit (Elt F) ℕ (UR sig nD τ) ℕ)) := by
  iintro ⟨-, HO⟩; iexact HO

theorem hpre0 (c : Dev nD) : iprop(StableHlo.held (c : Thread nD τ) (Pipeline.ucRefs τ sig) (V1 m c) ∗ E 0 c) ⊢ (reg0 m).pre c := .rfl

theorem hpost0 (c : Dev nD) : (reg0 m).post c ⊢ iprop(StableHlo.held (c : Thread nD τ) (Pipeline.ucRefs τ sig) (V2 m (outs m) c) ∗ E 1 c) := by
  rw [V2_eq]; exact .rfl

theorem hpre1 (c : Dev nD) : iprop(StableHlo.held (c : Thread nD τ) (Pipeline.ucRefs τ sig) (V3 m (outs m) c) ∗ E 1 c) ⊢ (reg1 m).pre c := by
  rw [V3_eq]; exact .rfl

theorem hpost1 (c : Dev nD) : (reg1 m).post c ⊢ iprop(StableHlo.held (c : Thread nD τ) (Pipeline.ucRefs τ sig) (V4 m (outs m) c) ∗ E 2 c) := by
  rw [V4_eq]; exact .rfl

theorem hpre2 (c : Dev nD) : iprop(StableHlo.held (c : Thread nD τ) (Pipeline.ucRefs τ sig) (V5 m (outs m) c) ∗ E 2 c) ⊢ (reg2 m).pre c := by
  rw [V5_eq]; exact .rfl

theorem hpost2 (c : Dev nD) : (reg2 m).post c ⊢ iprop(StableHlo.held (c : Thread nD τ) (Pipeline.ucRefs τ sig) (V6 m (outs m) c) ∗ E 3 c) := by
  rw [V6_eq]; exact .rfl

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (m := m) (EP := emb₁) (ι := ()) (𝒱₀ := 𝒱₀) (L := L) (lv := lv) (hL := fun _ _ => rfl) (ρ := ρ) (outs := outs m) (pdats := pdats m)
    (O₀ := 0) (G := fun _ => iprop(emp)) (u₀ := u₀) (hu₀ := hu₀) (E := E) (hE0 := hE0 ρ) (hE3 := hE3)
    (R0 := reg0 m) (hpre0 := hpre0 m) (hpost0 := hpost0 m) (R1 := reg1 m) (hpre1 := hpre1 m) (hpost1 := hpost1 m)
    (R2 := reg2 m) (hpre2 := hpre2 m) (hpost2 := hpost2 m)

end Cert.KernelIdeal.Layer
end
-- ==== Proof.KIRunValue.lean ====
import proofs.«136874_j78494822302010_1_alg».proof.Proof.KIRun

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- Every weakly fair run ends, and with every unscoped buffer at the fold's last contents. -/
theorem run_vals (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W9 m c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m))
    (fun c Q => by
      rewrite [main_chain c, Seg.run_eq_chain,
        show (segs m (outs m) 𝒱₀ L lv E () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (fun c => by simp only [segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m (outs m) c))
    (hch := fun c => ⟨.rfl, hpre0 m c, hpost0 m c, hpre1 m c, hpost1 m c, hpre2 m c, hpost2 m c, .rfl, .rfl, sep_mono .rfl (hE3 c)⟩)
    (hinit := ?_) (QY := fun c s => ∀ b ∈ Pipeline.ucRefs τ sig, s.mem ((c : Thread nD τ).1, b) = W9 m c b)
    (hfin := fun c s' => ?_) (hQ := fun _ h => h)
  · have hsplit (R : Dev nD → sProp (MT nD τ sig Unit (Elt F) ℕ (UR sig nD τ) ℕ)) : (bigSep Finset.univ fun c : Dev nD => iprop(unscopedBufs c (fun b => m ((c.tc : Thread nD τ).loc b)) ∗ R c))
        ⊢ iprop((bigSep Finset.univ fun c : Dev nD => StableHlo.held (c : Thread nD τ) (Pipeline.ucRefs τ sig) (V0 m c)) ∗ bigSep Finset.univ R) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit _ $$ H
    icases H' with ⟨Hh, Hr⟩
    imod (hE0 ρ) $$ [Hr Hla] with HE
    · isplitl [Hr]; · iexact Hr
      iexact Hla
    imodintro
    iapply (Entails.of_eq (bigSep_sep' Finset.univ (fun c : Dev nD => StableHlo.held (c : Thread nD τ) (Pipeline.ucRefs τ sig) (V0 m c)) (E (F := F) 0)).symm)
    isplitl [Hh]; · iexact Hh
    iexact HE
  · rw [V9_eq]
    unfold StableHlo.held
    iintro ⟨Hh, HSI⟩
    imodintro
    iapply (pointsTo_read_all (Pipeline.ucRefs τ sig) (fun b => ((c : Thread nD τ).1, b)) (W9 m c) s')
    isplitl [Hh] <;> iassumption

/-- An unscoped reference of the program is among the unscoped buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What holds of every final memory by two arguments holds of it together. -/
theorem run_and {s : MemSt nD τ sig (Elt F)} {Q Q' : PUnit × MemSt nD τ sig (Elt F) → Prop}
    (h : θ_run defs (onTc (τ := τ) (main (F := F))) s Q) (h' : θ_run defs (onTc (τ := τ) (main (F := F))) s Q') :
    θ_run defs (onTc (τ := τ) (main (F := F))) s fun r => Q r ∧ Q' r :=
  ⟨fun t ht hf => ⟨h.post t ht hf, h'.post t ht hf⟩, h.progress, h.fair⟩

end Cert.KernelIdeal.Layer

end
-- ==== Proof.KIHost.lean ====
import proofs.«136874_j78494822302010_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Layer

open Cert.KernelIdeal Cert.KernelIdeal.Gen
open Idealize.ShloMosaic Idealize.ShloMosaic.TcCoe Idealize.ShloMosaic.StableHlo
open Idealize.ShloMosaic.ValueIdx

variable {F : FTy → Type} [FloatOps F]

def rowsK (tab : (⟨S100000x64, .f32⟩ : BufTy).Contents (Elt F)) (idx : (⟨S8x2048, .i32⟩ : BufTy).Contents (Elt F)) :
    (⟨S8x2048x64, .f32⟩ : BufTy).Contents (Elt F) :=
  Host.gather gather_S100000x64_S8x2048x1_S8x2048x64_2_0_n_n_0_2_164 tab
    (broadcastInDim S8x2048x1 ![0, 1] bcast_S8x2048_S8x2048x1_0_1
      (select (cmpi .slt idx (broadcastInDim S8x2048 ![] bcast_S_S8x2048 (constantI S_ 32 0#32)))
        (addi idx (broadcastInDim S8x2048 ![] bcast_S_S8x2048 (constantI S_ 32 100000#32))) idx))

def egoK (a0 a1 : (⟨S8x2048, .i32⟩ : BufTy).Contents (Elt F)) (a3 a4 : (⟨S100000x64, .f32⟩ : BufTy).Contents (Elt F)) :
    (⟨S8x4096x64, .f32⟩ : BufTy).Contents (Elt F) :=
  concatenate S8x4096x64 1 [⟨S8x2048x64, rowsK a3 a0⟩, ⟨S8x2048x64, rowsK a4 a1⟩] concatenates_S8x2048x64_S8x2048x64_S8x4096x64_d1

def tpK (a : (⟨S3x64x64, .f32⟩ : BufTy).Contents (Elt F)) : (⟨S3x64x64, .f32⟩ : BufTy).Contents (Elt F) :=
  transpose S3x64x64 [0, 2, 1] a transposes_S3x64x64_S3x64x64_0_2_1

def rsK (a : (⟨S3x64, .f32⟩ : BufTy).Contents (Elt F)) : (⟨S3x1x64, .f32⟩ : BufTy).Contents (Elt F) :=
  shapeCast S3x1x64 a shapeCasts_S3x64_S3x1x64

def wK0 (t : (⟨S3x64x64, .f32⟩ : BufTy).Contents (Elt F)) : (⟨S64x64, .f32⟩ : BufTy).Contents (Elt F) :=
  shapeCast S64x64 (extractStridedSlice S1x64x64 ![0, 0, 0] t slices_S3x64x64_S1x64x64_0_0_0) shapeCasts_S1x64x64_S64x64

def wK1 (t : (⟨S3x64x64, .f32⟩ : BufTy).Contents (Elt F)) : (⟨S64x64, .f32⟩ : BufTy).Contents (Elt F) :=
  shapeCast S64x64 (extractStridedSlice S1x64x64 ![1, 0, 0] t slices_S3x64x64_S1x64x64_1_0_0) shapeCasts_S1x64x64_S64x64

def wK2 (t : (⟨S3x64x64, .f32⟩ : BufTy).Contents (Elt F)) : (⟨S64x64, .f32⟩ : BufTy).Contents (Elt F) :=
  shapeCast S64x64 (extractStridedSlice S1x64x64 ![2, 0, 0] t slices_S3x64x64_S1x64x64_2_0_0) shapeCasts_S1x64x64_S64x64

def bK0 (t : (⟨S3x1x64, .f32⟩ : BufTy).Contents (Elt F)) : (⟨S1x64, .f32⟩ : BufTy).Contents (Elt F) :=
  shapeCast S1x64 (extractStridedSlice S1x1x64 ![0, 0, 0] t slices_S3x1x64_S1x1x64_0_0_0) shapeCasts_S1x1x64_S1x64

def bK1 (t : (⟨S3x1x64, .f32⟩ : BufTy).Contents (Elt F)) : (⟨S1x64, .f32⟩ : BufTy).Contents (Elt F) :=
  shapeCast S1x64 (extractStridedSlice S1x1x64 ![1, 0, 0] t slices_S3x1x64_S1x1x64_1_0_0) shapeCasts_S1x1x64_S1x64

def bK2 (t : (⟨S3x1x64, .f32⟩ : BufTy).Contents (Elt F)) : (⟨S1x64, .f32⟩ : BufTy).Contents (Elt F) :=
  shapeCast S1x64 (extractStridedSlice S1x1x64 ![2, 0, 0] t slices_S3x1x64_S1x1x64_2_0_0) shapeCasts_S1x1x64_S1x64

def shiftK (s : (⟨S8x2048x1, .f32⟩ : BufTy).Contents (Elt F)) : (⟨S8x2048x1, .f32⟩ : BufTy).Contents (Elt F) :=
  subf s (broadcastInDim S8x2048x1 ![0, 1] bcast_S8x2048_S8x2048x1_0_1
    (maximumf (broadcastInDim S8x2048 ![] bcast_S_S8x2048 (constant S_ .f32 0xFF800000#32))
      (Host.reduce FloatOps.maximumf s (constant S_ .f32 0xFF800000#32) reducesTo_S8x2048x1_S8x2048_d2 h_S_)))

def lsmK (s : (⟨S8x2048x1, .f32⟩ : BufTy).Contents (Elt F)) : (⟨S8x2048x1, .f32⟩ : BufTy).Contents (Elt F) :=
  subf (shiftK s) (Host.log (broadcastInDim S8x2048x1 ![0, 1] bcast_S8x2048_S8x2048x1_0_1
    (Host.reduceAdd (Host.exp (shiftK s)) (constant S_ .f32 0x00000000#32) reducesTo_S8x2048x1_S8x2048_d2 h_S_)))

def tailK (x : (⟨S8x4096x64, .f32⟩ : BufTy).Contents (Elt F)) : (⟨S16384x1, .f32⟩ : BufTy).Contents (Elt F) :=
  shapeCast S16384x1 (lsmK (broadcastInDim S8x2048x1 ![0, 1] bcast_S8x2048_S8x2048x1_0_1
    (Host.reduceAdd (mulf (extractStridedSlice S8x2048x64 ![0, 0, 0] x slices_S8x4096x64_S8x2048x64_0_0_0)
        (extractStridedSlice S8x2048x64 ![0, 2048, 0] x slices_S8x4096x64_S8x2048x64_0_2048_0))
      (constant S_ .f32 0x00000000#32) reducesTo_S8x2048x64_S8x2048_d2 h_S_))) shapeCasts_S8x2048x1_S16384x1

attribute [local irreducible] Host.gather Host.reduce Host.reduceAdd concatenate
variable (W : Valuation τ sig (Elt F))

theorem after0_v14 :
    StableHlo.after hostOps0 W main_v14
      = egoK (W main_arg0) (W main_arg1) (W main_arg3) (W main_arg4) := rfl

theorem after0_v15 :
    StableHlo.after hostOps0 W main_v15 = tpK (W main_arg5) := rfl

theorem after0_v16 :
    StableHlo.after hostOps0 W main_v16 = tpK (W main_arg7) := rfl

theorem after0_v17 :
    StableHlo.after hostOps0 W main_v17 = rsK (W main_arg6) := rfl

theorem after0_v18 :
    StableHlo.after hostOps0 W main_v18 = rsK (W main_arg8) := rfl

theorem after0_v20 :
    StableHlo.after hostOps0 W main_v20 = wK0 (tpK (W main_arg5)) := rfl

theorem after0_v22 :
    StableHlo.after hostOps0 W main_v22 = bK0 (rsK (W main_arg6)) := rfl

theorem after0_v24 :
    StableHlo.after hostOps0 W main_v24 = wK0 (tpK (W main_arg7)) := rfl

theorem after0_v26 :
    StableHlo.after hostOps0 W main_v26 = bK0 (rsK (W main_arg8)) := rfl

theorem after1_v29 :
    StableHlo.after hostOps1 W main_v29 = wK1 (W main_v15) := rfl

theorem after1_v31 :
    StableHlo.after hostOps1 W main_v31 = bK1 (W main_v17) := rfl

theorem after1_v33 :
    StableHlo.after hostOps1 W main_v33 = wK1 (W main_v16) := rfl

theorem after1_v35 :
    StableHlo.after hostOps1 W main_v35 = bK1 (W main_v18) := rfl

theorem after2_v38 :
    StableHlo.after hostOps2 W main_v38 = wK2 (W main_v15) := rfl

theorem after2_v40 :
    StableHlo.after hostOps2 W main_v40 = bK2 (W main_v17) := rfl

theorem after2_v42 :
    StableHlo.after hostOps2 W main_v42 = wK2 (W main_v16) := rfl

theorem after2_v44 :
    StableHlo.after hostOps2 W main_v44 = bK2 (W main_v18) := rfl

theorem after3_v52 :
    StableHlo.after hostOps3_2 (StableHlo.after hostOps3_1 (StableHlo.after hostOps3 W)) main_v52
      = tailK (W main_v45) := rfl

-- the l-th matrix of the transposed stack, read at (d, e), is the stack at (l, e, d)

theorem slice_tp_apply (l : Fin 3) (h : S3x64x64.Slices ![l.val, 0, 0] S1x64x64) (a : (⟨S3x64x64, .f32⟩ : BufTy).Contents (Elt Ideal)) (d e : Fin 64) :
    shapeCast S64x64 (extractStridedSlice S1x64x64 ![l.val, 0, 0] (tpK (F := Ideal) a) h) shapeCasts_S1x64x64_S64x64 (ix2 d e) = a (ix3 l e d) :=
  (shapeCast_1ab_ab_apply _ _ d e).trans
    ((extractStridedSlice_apply _ _ _ _ (ix3 l d e)
        (fun c => match c with | ⟨0, _⟩ => rfl | ⟨1, _⟩ => (Nat.zero_add _).symm | ⟨2, _⟩ => (Nat.zero_add _).symm)).trans
      (transpose_ix3_021_apply _ _ _ _ _))

theorem wK0_tp_apply (a : (⟨S3x64x64, .f32⟩ : BufTy).Contents (Elt Ideal)) (d e : Fin 64) :
    wK0 (F := Ideal) (tpK a) (ix2 d e) = a (ix3 0 e d) := slice_tp_apply 0 _ a d e

theorem wK1_tp_apply (a : (⟨S3x64x64, .f32⟩ : BufTy).Contents (Elt Ideal)) (d e : Fin 64) :
    wK1 (F := Ideal) (tpK a) (ix2 d e) = a (ix3 1 e d) := slice_tp_apply 1 _ a d e

theorem wK2_tp_apply (a : (⟨S3x64x64, .f32⟩ : BufTy).Contents (Elt Ideal)) (d e : Fin 64) :
    wK2 (F := Ideal) (tpK a) (ix2 d e) = a (ix3 2 e d) := slice_tp_apply 2 _ a d e

-- the l-th one-row matrix of the stack of rows is the l-th row

theorem slice_rs_apply (l : Fin 3) (h : S3x1x64.Slices ![l.val, 0, 0] S1x1x64) (a : (⟨S3x64, .f32⟩ : BufTy).Contents (Elt Ideal)) (e : Fin 64) :
    shapeCast S1x64 (extractStridedSlice S1x1x64 ![l.val, 0, 0] (rsK (F := Ideal) a) h) shapeCasts_S1x1x64_S1x64 (ix2 0 e) = a (ix2 l e) :=
  (shapeCast_1ab_ab_apply _ _ (0 : Fin 1) e).trans
    ((extractStridedSlice_apply _ _ _ _ (ix3 l (0 : Fin 1) e)
        (fun c => match c with | ⟨0, _⟩ => rfl | ⟨1, _⟩ => rfl | ⟨2, _⟩ => (Nat.zero_add _).symm)).trans
      (shapeCast_apply _ _ _ _ (by
        rw [Shape.rowMajor_val_two, Shape.rowMajor_val_three]
        show l.val * 64 + e.val = (l.val * 1 + 0) * 64 + e.val
        rw [Nat.mul_one]; rfl)))

theorem bK0_rs_apply (a : (⟨S3x64, .f32⟩ : BufTy).Contents (Elt Ideal)) (e : Fin 64) :
    bK0 (F := Ideal) (rsK a) (ix2 0 e) = a (ix2 0 e) := slice_rs_apply 0 _ a e

theorem bK1_rs_apply (a : (⟨S3x64, .f32⟩ : BufTy).Contents (Elt Ideal)) (e : Fin 64) :
    bK1 (F := Ideal) (rsK a) (ix2 0 e) = a (ix2 1 e) := slice_rs_apply 1 _ a e

theorem bK2_rs_apply (a : (⟨S3x64, .f32⟩ : BufTy).Contents (Elt Ideal)) (e : Fin 64) :
    bK2 (F := Ideal) (rsK a) (ix2 0 e) = a (ix2 2 e) := slice_rs_apply 2 _ a e

end Cert.KernelIdeal.Layer
end
-- ==== Proof.Spec.lean ====
import Idealize.ShloMosaic.PureOps.Ideal
import Idealize.ShloMosaic.Lib.ValueIdx

noncomputable section

namespace Cert.LayerSpec

open Idealize.ShloMosaic

def lrelu (x : EReal) : EReal :=
  Scalar.select (Ideal.cmp .oge x (Ideal.ofBits .f32 0x00000000#32)) x (Ideal.ofBits .f32 0x3C23D70A#32 * x)

def side (adj : Fin 8 → Fin 4096 → Fin 4096 → EReal) (ego : Fin 8 → Fin 4096 → Fin 64 → EReal)
    (b : Fin 8) (n : Fin 4096) (d : Fin 64) : EReal :=
  ∑ k : Fin 4096, adj b n k * ego b k d

/-- layer(b,n,e) = lrelu(Σ_d side(b,n,d) · gw(e,d) + gb(e)) + lrelu(Σ_d (ego(b,n,d) · side(b,n,d)) · bw(e,d) + bb(e)). -/
def layer (adj : Fin 8 → Fin 4096 → Fin 4096 → EReal) (ego : Fin 8 → Fin 4096 → Fin 64 → EReal)
    (gw : Fin 64 → Fin 64 → EReal) (gb : Fin 64 → EReal) (bw : Fin 64 → Fin 64 → EReal) (bb : Fin 64 → EReal)
    (b : Fin 8) (n : Fin 4096) (e : Fin 64) : EReal :=
  lrelu ((∑ d : Fin 64, side adj ego b n d * gw e d) + gb e)
    + lrelu ((∑ d : Fin 64, (ego b n d * side adj ego b n d) * bw e d) + bb e)

end Cert.LayerSpec

end
-- ==== Proof.KIBody.lean ====
import proofs.«136874_j78494822302010_1_alg».proof.Proof.KITile
import proofs.«136874_j78494822302010_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Layer.TileValue

open Cert.KernelIdeal Cert.KernelIdeal.Gen
open Idealize.ShloMosaic Idealize.ShloMosaic.TcCoe Idealize.ShloMosaic.ValueIdx
open scoped BigOperators

theorem lhs_big_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhs_big_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem rhs_big_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem rhs_big_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- A 512 × 4096 block times a 4096 × 64 block into zero, at (r, d): the sum over the inner coordinate. -/
theorem matmul_big_apply (A : FVec Ideal S512x4096 .bf16) (B : FVec Ideal S4096x64 .bf16) (r : Fin 512) (d : Fin 64) :
    matmul dot_S512x4096_S4096x64_S512x64_1_0_0_1_n_n none A B (constant (F := Ideal) S512x64 .f32 0x00000000#32) (ix2 r d)
      = ∑ k : Fin 4096, A (ix2 r k) * B (ix2 k d) := by
  simp only [matmul]
  rw [Ideal.matmul_constant_zero_apply, ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 r d) ((contrEquiv1 dot_S512x4096_S4096x64_S512x64_1_0_0_1_n_n 4096 rfl rfl).symm k) = ix2 r k := funext fun a => Fin.ext (by
    match a with
    | ⟨0, _⟩ => exact lhs_big_0 _ _
    | ⟨1, _⟩ => exact (lhs_big_1 _ _).trans hk)
  have er : dot_S512x4096_S4096x64_S512x64_1_0_0_1_n_n.rhsIdx (ix2 r d) ((contrEquiv1 dot_S512x4096_S4096x64_S512x64_1_0_0_1_n_n 4096 rfl rfl).symm k) = ix2 k d := funext fun a => Fin.ext (by
    match a with
    | ⟨0, _⟩ => exact (rhs_big_0 _ _).trans hk
    | ⟨1, _⟩ => exact rhs_big_1 _ _)
  rw [el, er]

theorem lhs_small_0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem lhs_small_1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
theorem rhs_small_0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
theorem rhs_small_1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

/-- A 512 × 64 block times a 64 × 64 matrix into zero, at (r, d): the sum over the inner coordinate. -/
theorem matmul_small_apply (A : FVec Ideal S512x64 .bf16) (B : FVec Ideal S64x64 .bf16) (r : Fin 512) (d : Fin 64) :
    matmul dot_S512x64_S64x64_S512x64_1_0_0_1_n_n none A B (constant (F := Ideal) S512x64 .f32 0x00000000#32) (ix2 r d)
      = ∑ k : Fin 64, A (ix2 r k) * B (ix2 k d) := by
  simp only [matmul]
  rw [Ideal.matmul_constant_zero_apply, ← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 r d) ((contrEquiv1 dot_S512x64_S64x64_S512x64_1_0_0_1_n_n 64 rfl rfl).symm k) = ix2 r k := funext fun a => Fin.ext (by
    match a with
    | ⟨0, _⟩ => exact lhs_small_0 _ _
    | ⟨1, _⟩ => exact (lhs_small_1 _ _).trans hk)
  have er : dot_S512x64_S64x64_S512x64_1_0_0_1_n_n.rhsIdx (ix2 r d) ((contrEquiv1 dot_S512x64_S64x64_S512x64_1_0_0_1_n_n 64 rfl rfl).symm k) = ix2 k d := funext fun a => Fin.ext (by
    match a with
    | ⟨0, _⟩ => exact (rhs_small_0 _ _).trans hk
    | ⟨1, _⟩ => exact rhs_small_1 _ _)
  rw [el, er]

/-- The leaky rectifier, spelled as compare, scale and select, at an index. -/
theorem lrelu_block (v : FVec Ideal S512x64 .f32) (i : S512x64.Idx) :
    select (cmpf .oge v (broadcast S512x64 (Scalar.ofBits (F := Ideal) .f32 0x00000000#32)))
      v (mulf (broadcast S512x64 (Scalar.ofBits (F := Ideal) .f32 0x3C23D70A#32)) v) i = Cert.LayerSpec.lrelu (v i) := rfl

theorem pay2_apply (x0 : Vec Ideal S1x512x4096 .f32) (x1 : Vec Ideal S1x4096x64 .f32) (r : Fin 512) (d : Fin 64) :
    k0_pay2 (F := Ideal) x0 x1 (ix2 r d) = ∑ k : Fin 4096, x0 (ix3 (0 : Fin 1) r k) * x1 (ix3 (0 : Fin 1) k d) := by
  unfold k0_pay2
  refine (matmul_big_apply _ _ r d).trans ?_
  refine Finset.sum_congr rfl fun k _ => ?_
  exact congrArg₂ (· * ·) (shapeCast_1ab_ab_apply x0 _ r k) (shapeCast_1ab_ab_apply x1 _ k d)

theorem pay3_apply (x0 : Vec Ideal S1x512x4096 .f32) (x1 : Vec Ideal S1x4096x64 .f32) (x3 : Vec Ideal S64x64 .f32)
    (x4 : Vec Ideal S1x64 .f32) (r : Fin 512) (e : Fin 64) :
    k0_pay3 (F := Ideal) x0 x1 x3 x4 (ix2 r e)
      = Cert.LayerSpec.lrelu ((∑ d : Fin 64, k0_pay2 (F := Ideal) x0 x1 (ix2 r d) * x3 (ix2 d e)) + x4 (ix2 (0 : Fin 1) e)) := by
  unfold k0_pay3
  refine (lrelu_block _ _).trans (congrArg Cert.LayerSpec.lrelu ?_)
  refine congrArg₂ (· + ·) ?_ ?_
  · refine (matmul_small_apply _ _ r e).trans (Finset.sum_congr rfl fun d _ => ?_)
    exact congrArg (k0_pay2 (F := Ideal) x0 x1 (ix2 r d) * ·) (congrFun (shapeCast_self x3 _) (ix2 d e))
  · exact (broadcastTo_1b_ab_apply _ _ r e).trans (congrFun (shapeCast_self x4 _) _)

theorem pay4_apply (x0 : Vec Ideal S1x512x4096 .f32) (x1 : Vec Ideal S1x4096x64 .f32) (x5 : Vec Ideal S64x64 .f32)
    (x6 : Vec Ideal S1x64 .f32) (x2 : Vec Ideal S1x512x64 .f32) (r : Fin 512) (e : Fin 64) :
    k0_pay4 (F := Ideal) x0 x1 x5 x6 x2 (ix2 r e)
      = (∑ d : Fin 64, (x2 (ix3 (0 : Fin 1) r d) * k0_pay2 (F := Ideal) x0 x1 (ix2 r d)) * x5 (ix2 d e)) + x6 (ix2 (0 : Fin 1) e) := by
  unfold k0_pay4
  refine congrArg₂ (· + ·) ?_ ?_
  · refine (matmul_small_apply _ _ r e).trans (Finset.sum_congr rfl fun d _ => ?_)
    exact congrArg₂ (· * ·) (congrArg (· * k0_pay2 (F := Ideal) x0 x1 (ix2 r d)) (shapeCast_1ab_ab_apply x2 _ r d))
      (congrFun (shapeCast_self x5 _) (ix2 d e))
  · exact (broadcastTo_1b_ab_apply _ _ r e).trans (congrFun (shapeCast_self x6 _) _)

theorem pay1_apply (v25 v32 : FVec Ideal S512x64 .f32) (u : Fin 1) (r : Fin 512) (e : Fin 64) :
    k0_pay1 (F := Ideal) v25 v32 (cmpf .oge v32 (broadcast S512x64 (Scalar.ofBits (F := Ideal) .f32 0x00000000#32))) (ix3 u r e)
      = v25 (ix2 r e) + Cert.LayerSpec.lrelu (v32 (ix2 r e)) := by
  unfold k0_pay1
  refine (shapeCast_ab_1ab_apply _ _ u r e).trans ?_
  rfl

theorem hz3 : (![0, 0, 0] : Fin 3 → Nat) = fun _ => 0 := funext fun a => by fin_cases a <;> rfl
theorem hz2 : (![0, 0] : Fin 2 → Nat) = fun _ => 0 := funext fun a => by fin_cases a <;> rfl

theorem pay5_eq (x0 : Vec Ideal S1x512x4096 .f32) (x1 : Vec Ideal S1x4096x64 .f32) (x5 : Vec Ideal S64x64 .f32)
    (x6 : Vec Ideal S1x64 .f32) (x2 : Vec Ideal S1x512x64 .f32) :
    k0_pay5 (F := Ideal) x0 x1 x5 x6 x2
      = cmpf .oge (k0_pay4 (F := Ideal) x0 x1 x5 x6 x2) (broadcast S512x64 (Scalar.ofBits (F := Ideal) .f32 0x00000000#32)) := rfl

/-- The tile at (r, e) is lrelu(Σ_d side(r,d) · gw(d,e) + gb(e)) + lrelu(Σ_d (ego(r,d) · side(r,d)) · bw(d,e) + bb(e)),
    with side(r,d) = Σ_k adj(r,k) · ego(k,d). -/
theorem outTile_apply (x0 : Vec Ideal S1x512x4096 .f32) (x1 : Vec Ideal S1x4096x64 .f32) (x2 : Vec Ideal S1x512x64 .f32)
    (x3 : Vec Ideal S64x64 .f32) (x4 : Vec Ideal S1x64 .f32) (x5 : Vec Ideal S64x64 .f32) (x6 : Vec Ideal S1x64 .f32)
    (r : Fin 512) (e : Fin 64) :
    outTile (F := Ideal) x0 x1 x2 x3 x4 x5 x6 (ix3 (0 : Fin 1) r e)
      = Cert.LayerSpec.lrelu ((∑ d : Fin 64, (∑ k : Fin 4096, x0 (ix3 (0 : Fin 1) r k) * x1 (ix3 (0 : Fin 1) k d)) * x3 (ix2 d e)) + x4 (ix2 (0 : Fin 1) e))
        + Cert.LayerSpec.lrelu ((∑ d : Fin 64, (x2 (ix3 (0 : Fin 1) r d) * (∑ k : Fin 4096, x0 (ix3 (0 : Fin 1) r k) * x1 (ix3 (0 : Fin 1) k d))) * x5 (ix2 d e)) + x6 (ix2 (0 : Fin 1) e)) := by
  unfold outTile
  rw [View.canon_unit_zero hz3]
  simp only [View.ld_unit_zero (S := S1x512x4096) hz3, View.ld_unit_zero (S := S1x4096x64) hz3, View.ld_unit_zero (S := S1x512x64) hz3,
    View.ld_unit_zero (S := S64x64) hz2, View.ld_unit_zero (S := S1x64) hz2]
  rw [pay5_eq]
  refine (pay1_apply _ _ 0 r e).trans ?_
  rw [pay3_apply, pay4_apply]
  simp only [pay2_apply]

end Cert.KernelIdeal.Layer.TileValue

end
-- ==== Proof.KIValue0.lean ====
import proofs.«136874_j78494822302010_1_alg».proof.Proof.KIRegion0
import proofs.«136874_j78494822302010_1_alg».proof.Proof.KIBody

set_option maxRecDepth 16384

noncomputable section

namespace Cert.KernelIdeal.Layer

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

abbrev adjA0 (c : Dev nD) : Vec Ideal S8x4096x4096 .f32 := V c main_arg2
abbrev egoA0 (c : Dev nD) : Vec Ideal S8x4096x64 .f32 := V c main_v14
abbrev gwA0 (c : Dev nD) : Vec Ideal S64x64 .f32 := V c main_v20
abbrev gbA0 (c : Dev nD) : Vec Ideal S1x64 .f32 := V c main_v22
abbrev bwA0 (c : Dev nD) : Vec Ideal S64x64 .f32 := V c main_v24
abbrev bbA0 (c : Dev nD) : Vec Ideal S1x64 .f32 := V c main_v26

namespace Value0

abbrev adjB (c : Dev nD) (t : Fin cfg0.N) : Vec Ideal S1x512x4096 .f32 := iblk0 V c 0 t
abbrev egoB (c : Dev nD) (t : Fin cfg0.N) : Vec Ideal S1x4096x64 .f32 := iblk0 V c 1 t
abbrev egoT (c : Dev nD) (t : Fin cfg0.N) : Vec Ideal S1x512x64 .f32 := iblk0 V c 2 t
abbrev gwB (c : Dev nD) (t : Fin cfg0.N) : Vec Ideal S64x64 .f32 := iblk0 V c 3 t
abbrev gbB (c : Dev nD) (t : Fin cfg0.N) : Vec Ideal S1x64 .f32 := iblk0 V c 4 t
abbrev bwB (c : Dev nD) (t : Fin cfg0.N) : Vec Ideal S64x64 .f32 := iblk0 V c 5 t
abbrev bbB (c : Dev nD) (t : Fin cfg0.N) : Vec Ideal S1x64 .f32 := iblk0 V c 6 t

/-- A grid point is a pair (batch, row tile); every window's block index is read off that pair. -/
theorem idx_facts0 : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = win0_7.index t (1 : Fin 3) ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) ≤ 7 ∧ win0_7.index t (1 : Fin 3) ≤ 7 ∧ win0_7.index t (2 : Fin 3) = 0 :=
  (by decide +kernel : ∀ t : Fin grid0.N, _)

theorem idx_onto0 : ∀ (q0 : Fin 8) (q1 : Fin 8), ∃ t : Fin cfg0.N, win0_7.index t = ![q0.val, q1.val, 0] :=
  (by decide +kernel : ∀ (q0 : Fin 8) (q1 : Fin 8), ∃ t : Fin grid0.N, win0_7.index t = ![q0.val, q1.val, 0])

/-- At the point of tile (b, n div 512) every input block is its array restricted to batch b (and to the tile's rows). -/
theorem blocks0 (c : Dev nD) (t : Fin cfg0.N) (b : Fin 8) (n : Fin 4096) (r : Fin 512)
    (hb : win0_7.index t (0 : Fin 3) = b.val) (hn : win0_7.index t (1 : Fin 3) * 512 + r.val = n.val) :
    (∀ k, adjB V c t (ix3 (0 : Fin 1) r k) = adjA0 V c (ix3 b n k)) ∧ (∀ k d, egoB V c t (ix3 (0 : Fin 1) k d) = egoA0 V c (ix3 b k d))
    ∧ (∀ d, egoT V c t (ix3 (0 : Fin 1) r d) = egoA0 V c (ix3 b n d))
    ∧ (∀ d e, gwB V c t (ix2 d e) = gwA0 V c (ix2 d e)) ∧ (∀ e, gbB V c t (ix2 (0 : Fin 1) e) = gbA0 V c (ix2 (0 : Fin 1) e))
    ∧ (∀ d e, bwB V c t (ix2 d e) = bwA0 V c (ix2 d e)) ∧ (∀ e, bbB V c t (ix2 (0 : Fin 1) e) = bbA0 V c (ix2 (0 : Fin 1) e)) := by
  have hf := idx_facts0 t
  refine ⟨fun k => congrArg (V c main_arg2) (funext fun a => Fin.ext ?_), fun k d => congrArg (V c main_v14) (funext fun a => Fin.ext ?_),
    fun d => congrArg (V c main_v14) (funext fun a => Fin.ext ?_), fun d e => congrArg (V c main_v20) (funext fun a => Fin.ext ?_),
    fun e => congrArg (V c main_v22) (funext fun a => Fin.ext ?_), fun d e => congrArg (V c main_v24) (funext fun a => Fin.ext ?_),
    fun e => congrArg (V c main_v26) (funext fun a => Fin.ext ?_)⟩
  · match a with
    | ⟨0, _⟩ => show win0_0.index t (0 : Fin 3) * 1 + 1 * (0 : Nat) = b.val; omega
    | ⟨1, _⟩ => show win0_0.index t (1 : Fin 3) * 512 + 1 * r.val = n.val; omega
    | ⟨2, _⟩ => show win0_0.index t (2 : Fin 3) * 4096 + 1 * k.val = k.val; omega
  · match a with
    | ⟨0, _⟩ => show win0_1.index t (0 : Fin 3) * 1 + 1 * (0 : Nat) = b.val; omega
    | ⟨1, _⟩ => show win0_1.index t (1 : Fin 3) * 4096 + 1 * k.val = k.val; omega
    | ⟨2, _⟩ => show win0_1.index t (2 : Fin 3) * 64 + 1 * d.val = d.val; omega
  · match a with
    | ⟨0, _⟩ => show win0_2.index t (0 : Fin 3) * 1 + 1 * (0 : Nat) = b.val; omega
    | ⟨1, _⟩ => show win0_2.index t (1 : Fin 3) * 512 + 1 * r.val = n.val; omega
    | ⟨2, _⟩ => show win0_2.index t (2 : Fin 3) * 64 + 1 * d.val = d.val; omega
  · match a with
    | ⟨0, _⟩ => show win0_3.index t (0 : Fin 2) * 64 + 1 * d.val = d.val; omega
    | ⟨1, _⟩ => show win0_3.index t (1 : Fin 2) * 64 + 1 * e.val = e.val; omega
  · match a with
    | ⟨0, _⟩ => show win0_4.index t (0 : Fin 2) * 1 + 1 * (0 : Nat) = (0 : Nat); omega
    | ⟨1, _⟩ => show win0_4.index t (1 : Fin 2) * 64 + 1 * e.val = e.val; omega
  · match a with
    | ⟨0, _⟩ => show win0_5.index t (0 : Fin 2) * 64 + 1 * d.val = d.val; omega
    | ⟨1, _⟩ => show win0_5.index t (1 : Fin 2) * 64 + 1 * e.val = e.val; omega
  · match a with
    | ⟨0, _⟩ => show win0_6.index t (0 : Fin 2) * 1 + 1 * (0 : Nat) = (0 : Nat); omega
    | ⟨1, _⟩ => show win0_6.index t (1 : Fin 2) * 64 + 1 * e.val = e.val; omega

abbrev layerA0 (c : Dev nD) : Vec Ideal S8x4096x64 .f32 :=
  fun j => Cert.LayerSpec.layer (fun b n k => adjA0 V c (ix3 b n k)) (fun b n d => egoA0 V c (ix3 b n d)) (fun e d => gwA0 V c (ix2 d e)) (fun e => gbA0 V c (ix2 (0 : Fin 1) e))
        (fun e d => bwA0 V c (ix2 d e)) (fun e => bbA0 V c (ix2 (0 : Fin 1) e)) (j 0) (j 1) (j 2)

/-- Row r, feature e of a point's tile is the layer at (b, n, e) with n = 512 · tile + r. -/
theorem tile_blocks0 (c : Dev nD) (t : Fin cfg0.N) (b : Fin 8) (n : Fin 4096) (r : Fin 512) (e : Fin 64)
    (hb : win0_7.index t (0 : Fin 3) = b.val) (hn : win0_7.index t (1 : Fin 3) * 512 + r.val = n.val) :
    outTile (F := Ideal) (adjB V c t) (egoB V c t) (egoT V c t) (gwB V c t) (gbB V c t) (bwB V c t) (bbB V c t) (ix3 (0 : Fin 1) r e)
      = Cert.LayerSpec.layer (fun b n k => adjA0 V c (ix3 b n k)) (fun b n d => egoA0 V c (ix3 b n d)) (fun e d => gwA0 V c (ix2 d e)) (fun e => gbA0 V c (ix2 (0 : Fin 1) e))
        (fun e d => bwA0 V c (ix2 d e)) (fun e => bbA0 V c (ix2 (0 : Fin 1) e)) b n e := by
  obtain ⟨hadj, hego, hrow, hgw, hgb, hbw, hbb⟩ := blocks0 V c t b n r hb hn
  have hside (d : Fin 64) : (∑ k : Fin 4096, adjB V c t (ix3 (0 : Fin 1) r k) * egoB V c t (ix3 (0 : Fin 1) k d))
      = Cert.LayerSpec.side (fun b n k => adjA0 V c (ix3 b n k)) (fun b n d => egoA0 V c (ix3 b n d)) b n d :=
    Finset.sum_congr rfl fun k _ => congrArg₂ (· * ·) (hadj k) (hego k d)
  refine (TileValue.outTile_apply (adjB V c t) (egoB V c t) (egoT V c t) (gwB V c t) (gbB V c t) (bwB V c t) (bbB V c t) r e).trans ?_
  unfold Cert.LayerSpec.layer
  refine congrArg₂ (· + ·) (congrArg Cert.LayerSpec.lrelu (congrArg₂ (· + ·) (Finset.sum_congr rfl fun d _ => ?_) (hgb e)))
    (congrArg Cert.LayerSpec.lrelu (congrArg₂ (· + ·) (Finset.sum_congr rfl fun d _ => ?_) (hbb e)))
  · exact congrArg₂ (· * ·) (hside d) (hgw d e)
  · exact congrArg₂ (· * ·) (congrArg₂ (· * ·) (hrow d) (hside d)) (hbw d e)

/-- A point's tile is its block of the layer. -/
theorem flushed0_eq (c : Dev nD) (t : Fin cfg0.N) :
    (dat0 (F := Ideal) V c).flushed 7 t = ((cfg0.win 7).blk t).view.read (Elt Ideal) (layerA0 V c) := by
  show (cfg0.win 7).cut (grid0.coords t) ((dat0 V c).after 7 t) = _
  rw [after0_7]
  have hf := idx_facts0 t
  funext j
  revert j
  show ∀ j : S1x512x64.Idx, outTile (F := Ideal) (adjB V c t) (egoB V c t) (egoT V c t) (gwB V c t) (gbB V c t) (bwB V c t) (bbB V c t) j
    = layerA0 V c (((cfg0.win 7).blk t).view.emb j)
  intro j
  obtain ⟨u, r, e, rfl⟩ : ∃ (u : Fin 1) (r : Fin 512) (e : Fin 64), j = ix3 u r e := ⟨j 0, j 1, j 2, eq_ix3 j⟩
  obtain rfl : u = 0 := Fin.ext (by omega)
  have hr : r.val < 512 := r.isLt
  have hemb : ((cfg0.win 7).blk t).view.emb (ix3 (0 : Fin 1) r e)
      = ix3 (⟨win0_7.index t (0 : Fin 3), by omega⟩ : Fin 8) (⟨win0_7.index t (1 : Fin 3) * 512 + r.val, by omega⟩ : Fin 4096) e := by
    funext a; apply Fin.ext
    match a with
    | ⟨0, _⟩ => show win0_7.index t (0 : Fin 3) * 1 + 1 * (0 : Nat) = win0_7.index t (0 : Fin 3); omega
    | ⟨1, _⟩ => show win0_7.index t (1 : Fin 3) * 512 + 1 * r.val = win0_7.index t (1 : Fin 3) * 512 + r.val; omega
    | ⟨2, _⟩ => show win0_7.index t (2 : Fin 3) * 64 + 1 * e.val = e.val; omega
  rw [hemb]
  exact tile_blocks0 V c t _ _ r e rfl rfl

theorem mem_blk0 (t : Fin cfg0.N) (i : S8x4096x64.Idx) :
    i ∈ ((cfg0.win 7).blk t).view.set ↔ ∀ a : Fin 3, win0_7.index t a * S1x512x64.size a ≤ (i a).val ∧ (i a).val < win0_7.index t a * S1x512x64.size a + S1x512x64.size a := by
  show i ∈ ((View.whole main_v27).slice (win0_7.rect t)).set ↔ _
  rw [View.set_slice_whole, Rect.mem_set_unit]
  exact Iff.rfl

theorem covered0 (i : S8x4096x64.Idx) : ∃ t : Fin cfg0.N, (cfg0.win 7).flush t = true ∧ i ∈ ((cfg0.win 7).blk t).view.set := by
  have hi0 : (i 0).val < 8 := (i 0).isLt
  have hi1 : (i 1).val < 4096 := (i 1).isLt
  have hi2 : (i 2).val < 64 := (i 2).isLt
  obtain ⟨t, ht⟩ := idx_onto0 ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk0]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 64 ≤ (i 2).val ∧ (i 2).val < win0_7.index t (2 : Fin 3) * 64 + 64; omega

end Value0

/-- The 64 tiles are blocks of one array, the layer, and cover it. -/
theorem final0 (c : Dev nD) : (dat0 (F := Ideal) V c).arrAt 7 cfg0.N
    = fun j => Cert.LayerSpec.layer (fun b n k => adjA0 V c (ix3 b n k)) (fun b n d => egoA0 V c (ix3 b n d)) (fun e d => gwA0 V c (ix2 d e)) (fun e => gbA0 V c (ix2 (0 : Fin 1) e))
        (fun e d => bwA0 V c (ix2 d e)) (fun e => bbA0 V c (ix2 (0 : Fin 1) e)) (j 0) (j 1) (j 2) :=
  (dat0 (F := Ideal) V c).arrAt_eq_of_cover 7 (Value0.layerA0 V c) (fun t _ => Value0.flushed0_eq V c t) Value0.covered0

end Cert.KernelIdeal.Layer

end
-- ==== Proof.KIValue1.lean ====
import proofs.«136874_j78494822302010_1_alg».proof.Proof.KIRegion1
import proofs.«136874_j78494822302010_1_alg».proof.Proof.KIBody

set_option maxRecDepth 16384

noncomputable section

namespace Cert.KernelIdeal.Layer

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

abbrev adjA1 (c : Dev nD) : Vec Ideal S8x4096x4096 .f32 := V c main_arg2
abbrev egoA1 (c : Dev nD) : Vec Ideal S8x4096x64 .f32 := V c main_v27
abbrev gwA1 (c : Dev nD) : Vec Ideal S64x64 .f32 := V c main_v29
abbrev gbA1 (c : Dev nD) : Vec Ideal S1x64 .f32 := V c main_v31
abbrev bwA1 (c : Dev nD) : Vec Ideal S64x64 .f32 := V c main_v33
abbrev bbA1 (c : Dev nD) : Vec Ideal S1x64 .f32 := V c main_v35

namespace Value1

abbrev adjB (c : Dev nD) (t : Fin cfg1.N) : Vec Ideal S1x512x4096 .f32 := iblk1 V c 0 t
abbrev egoB (c : Dev nD) (t : Fin cfg1.N) : Vec Ideal S1x4096x64 .f32 := iblk1 V c 1 t
abbrev egoT (c : Dev nD) (t : Fin cfg1.N) : Vec Ideal S1x512x64 .f32 := iblk1 V c 2 t
abbrev gwB (c : Dev nD) (t : Fin cfg1.N) : Vec Ideal S64x64 .f32 := iblk1 V c 3 t
abbrev gbB (c : Dev nD) (t : Fin cfg1.N) : Vec Ideal S1x64 .f32 := iblk1 V c 4 t
abbrev bwB (c : Dev nD) (t : Fin cfg1.N) : Vec Ideal S64x64 .f32 := iblk1 V c 5 t
abbrev bbB (c : Dev nD) (t : Fin cfg1.N) : Vec Ideal S1x64 .f32 := iblk1 V c 6 t

/-- A grid point is a pair (batch, row tile); every window's block index is read off that pair. -/
theorem idx_facts1 : ∀ t : Fin cfg1.N,
    win1_0.index t (0 : Fin 3) = win1_7.index t (0 : Fin 3) ∧ win1_0.index t (1 : Fin 3) = win1_7.index t (1 : Fin 3) ∧ win1_0.index t (2 : Fin 3) = 0
    ∧ win1_1.index t (0 : Fin 3) = win1_7.index t (0 : Fin 3) ∧ win1_1.index t (1 : Fin 3) = 0 ∧ win1_1.index t (2 : Fin 3) = 0
    ∧ win1_2.index t (0 : Fin 3) = win1_7.index t (0 : Fin 3) ∧ win1_2.index t (1 : Fin 3) = win1_7.index t (1 : Fin 3) ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) ≤ 7 ∧ win1_7.index t (1 : Fin 3) ≤ 7 ∧ win1_7.index t (2 : Fin 3) = 0 :=
  (by decide +kernel : ∀ t : Fin grid1.N, _)

theorem idx_onto1 : ∀ (q0 : Fin 8) (q1 : Fin 8), ∃ t : Fin cfg1.N, win1_7.index t = ![q0.val, q1.val, 0] :=
  (by decide +kernel : ∀ (q0 : Fin 8) (q1 : Fin 8), ∃ t : Fin grid1.N, win1_7.index t = ![q0.val, q1.val, 0])

/-- At the point of tile (b, n div 512) every input block is its array restricted to batch b (and to the tile's rows). -/
theorem blocks1 (c : Dev nD) (t : Fin cfg1.N) (b : Fin 8) (n : Fin 4096) (r : Fin 512)
    (hb : win1_7.index t (0 : Fin 3) = b.val) (hn : win1_7.index t (1 : Fin 3) * 512 + r.val = n.val) :
    (∀ k, adjB V c t (ix3 (0 : Fin 1) r k) = adjA1 V c (ix3 b n k)) ∧ (∀ k d, egoB V c t (ix3 (0 : Fin 1) k d) = egoA1 V c (ix3 b k d))
    ∧ (∀ d, egoT V c t (ix3 (0 : Fin 1) r d) = egoA1 V c (ix3 b n d))
    ∧ (∀ d e, gwB V c t (ix2 d e) = gwA1 V c (ix2 d e)) ∧ (∀ e, gbB V c t (ix2 (0 : Fin 1) e) = gbA1 V c (ix2 (0 : Fin 1) e))
    ∧ (∀ d e, bwB V c t (ix2 d e) = bwA1 V c (ix2 d e)) ∧ (∀ e, bbB V c t (ix2 (0 : Fin 1) e) = bbA1 V c (ix2 (0 : Fin 1) e)) := by
  have hf := idx_facts1 t
  refine ⟨fun k => congrArg (V c main_arg2) (funext fun a => Fin.ext ?_), fun k d => congrArg (V c main_v27) (funext fun a => Fin.ext ?_),
    fun d => congrArg (V c main_v27) (funext fun a => Fin.ext ?_), fun d e => congrArg (V c main_v29) (funext fun a => Fin.ext ?_),
    fun e => congrArg (V c main_v31) (funext fun a => Fin.ext ?_), fun d e => congrArg (V c main_v33) (funext fun a => Fin.ext ?_),
    fun e => congrArg (V c main_v35) (funext fun a => Fin.ext ?_)⟩
  · match a with
    | ⟨0, _⟩ => show win1_0.index t (0 : Fin 3) * 1 + 1 * (0 : Nat) = b.val; omega
    | ⟨1, _⟩ => show win1_0.index t (1 : Fin 3) * 512 + 1 * r.val = n.val; omega
    | ⟨2, _⟩ => show win1_0.index t (2 : Fin 3) * 4096 + 1 * k.val = k.val; omega
  · match a with
    | ⟨0, _⟩ => show win1_1.index t (0 : Fin 3) * 1 + 1 * (0 : Nat) = b.val; omega
    | ⟨1, _⟩ => show win1_1.index t (1 : Fin 3) * 4096 + 1 * k.val = k.val; omega
    | ⟨2, _⟩ => show win1_1.index t (2 : Fin 3) * 64 + 1 * d.val = d.val; omega
  · match a with
    | ⟨0, _⟩ => show win1_2.index t (0 : Fin 3) * 1 + 1 * (0 : Nat) = b.val; omega
    | ⟨1, _⟩ => show win1_2.index t (1 : Fin 3) * 512 + 1 * r.val = n.val; omega
    | ⟨2, _⟩ => show win1_2.index t (2 : Fin 3) * 64 + 1 * d.val = d.val; omega
  · match a with
    | ⟨0, _⟩ => show win1_3.index t (0 : Fin 2) * 64 + 1 * d.val = d.val; omega
    | ⟨1, _⟩ => show win1_3.index t (1 : Fin 2) * 64 + 1 * e.val = e.val; omega
  · match a with
    | ⟨0, _⟩ => show win1_4.index t (0 : Fin 2) * 1 + 1 * (0 : Nat) = (0 : Nat); omega
    | ⟨1, _⟩ => show win1_4.index t (1 : Fin 2) * 64 + 1 * e.val = e.val; omega
  · match a with
    | ⟨0, _⟩ => show win1_5.index t (0 : Fin 2) * 64 + 1 * d.val = d.val; omega
    | ⟨1, _⟩ => show win1_5.index t (1 : Fin 2) * 64 + 1 * e.val = e.val; omega
  · match a with
    | ⟨0, _⟩ => show win1_6.index t (0 : Fin 2) * 1 + 1 * (0 : Nat) = (0 : Nat); omega
    | ⟨1, _⟩ => show win1_6.index t (1 : Fin 2) * 64 + 1 * e.val = e.val; omega

abbrev layerA1 (c : Dev nD) : Vec Ideal S8x4096x64 .f32 :=
  fun j => Cert.LayerSpec.layer (fun b n k => adjA1 V c (ix3 b n k)) (fun b n d => egoA1 V c (ix3 b n d)) (fun e d => gwA1 V c (ix2 d e)) (fun e => gbA1 V c (ix2 (0 : Fin 1) e))
        (fun e d => bwA1 V c (ix2 d e)) (fun e => bbA1 V c (ix2 (0 : Fin 1) e)) (j 0) (j 1) (j 2)

/-- Row r, feature e of a point's tile is the layer at (b, n, e) with n = 512 · tile + r. -/
theorem tile_blocks1 (c : Dev nD) (t : Fin cfg1.N) (b : Fin 8) (n : Fin 4096) (r : Fin 512) (e : Fin 64)
    (hb : win1_7.index t (0 : Fin 3) = b.val) (hn : win1_7.index t (1 : Fin 3) * 512 + r.val = n.val) :
    outTile (F := Ideal) (adjB V c t) (egoB V c t) (egoT V c t) (gwB V c t) (gbB V c t) (bwB V c t) (bbB V c t) (ix3 (0 : Fin 1) r e)
      = Cert.LayerSpec.layer (fun b n k => adjA1 V c (ix3 b n k)) (fun b n d => egoA1 V c (ix3 b n d)) (fun e d => gwA1 V c (ix2 d e)) (fun e => gbA1 V c (ix2 (0 : Fin 1) e))
        (fun e d => bwA1 V c (ix2 d e)) (fun e => bbA1 V c (ix2 (0 : Fin 1) e)) b n e := by
  obtain ⟨hadj, hego, hrow, hgw, hgb, hbw, hbb⟩ := blocks1 V c t b n r hb hn
  have hside (d : Fin 64) : (∑ k : Fin 4096, adjB V c t (ix3 (0 : Fin 1) r k) * egoB V c t (ix3 (0 : Fin 1) k d))
      = Cert.LayerSpec.side (fun b n k => adjA1 V c (ix3 b n k)) (fun b n d => egoA1 V c (ix3 b n d)) b n d :=
    Finset.sum_congr rfl fun k _ => congrArg₂ (· * ·) (hadj k) (hego k d)
  refine (TileValue.outTile_apply (adjB V c t) (egoB V c t) (egoT V c t) (gwB V c t) (gbB V c t) (bwB V c t) (bbB V c t) r e).trans ?_
  unfold Cert.LayerSpec.layer
  refine congrArg₂ (· + ·) (congrArg Cert.LayerSpec.lrelu (congrArg₂ (· + ·) (Finset.sum_congr rfl fun d _ => ?_) (hgb e)))
    (congrArg Cert.LayerSpec.lrelu (congrArg₂ (· + ·) (Finset.sum_congr rfl fun d _ => ?_) (hbb e)))
  · exact congrArg₂ (· * ·) (hside d) (hgw d e)
  · exact congrArg₂ (· * ·) (congrArg₂ (· * ·) (hrow d) (hside d)) (hbw d e)

/-- A point's tile is its block of the layer. -/
theorem flushed1_eq (c : Dev nD) (t : Fin cfg1.N) :
    (dat1 (F := Ideal) V c).flushed 7 t = ((cfg1.win 7).blk t).view.read (Elt Ideal) (layerA1 V c) := by
  show (cfg1.win 7).cut (grid1.coords t) ((dat1 V c).after 7 t) = _
  rw [after1_7]
  have hf := idx_facts1 t
  funext j
  revert j
  show ∀ j : S1x512x64.Idx, outTile (F := Ideal) (adjB V c t) (egoB V c t) (egoT V c t) (gwB V c t) (gbB V c t) (bwB V c t) (bbB V c t) j
    = layerA1 V c (((cfg1.win 7).blk t).view.emb j)
  intro j
  obtain ⟨u, r, e, rfl⟩ : ∃ (u : Fin 1) (r : Fin 512) (e : Fin 64), j = ix3 u r e := ⟨j 0, j 1, j 2, eq_ix3 j⟩
  obtain rfl : u = 0 := Fin.ext (by omega)
  have hr : r.val < 512 := r.isLt
  have hemb : ((cfg1.win 7).blk t).view.emb (ix3 (0 : Fin 1) r e)
      = ix3 (⟨win1_7.index t (0 : Fin 3), by omega⟩ : Fin 8) (⟨win1_7.index t (1 : Fin 3) * 512 + r.val, by omega⟩ : Fin 4096) e := by
    funext a; apply Fin.ext
    match a with
    | ⟨0, _⟩ => show win1_7.index t (0 : Fin 3) * 1 + 1 * (0 : Nat) = win1_7.index t (0 : Fin 3); omega
    | ⟨1, _⟩ => show win1_7.index t (1 : Fin 3) * 512 + 1 * r.val = win1_7.index t (1 : Fin 3) * 512 + r.val; omega
    | ⟨2, _⟩ => show win1_7.index t (2 : Fin 3) * 64 + 1 * e.val = e.val; omega
  rw [hemb]
  exact tile_blocks1 V c t _ _ r e rfl rfl

theorem mem_blk1 (t : Fin cfg1.N) (i : S8x4096x64.Idx) :
    i ∈ ((cfg1.win 7).blk t).view.set ↔ ∀ a : Fin 3, win1_7.index t a * S1x512x64.size a ≤ (i a).val ∧ (i a).val < win1_7.index t a * S1x512x64.size a + S1x512x64.size a := by
  show i ∈ ((View.whole main_v36).slice (win1_7.rect t)).set ↔ _
  rw [View.set_slice_whole, Rect.mem_set_unit]
  exact Iff.rfl

theorem covered1 (i : S8x4096x64.Idx) : ∃ t : Fin cfg1.N, (cfg1.win 7).flush t = true ∧ i ∈ ((cfg1.win 7).blk t).view.set := by
  have hi0 : (i 0).val < 8 := (i 0).isLt
  have hi1 : (i 1).val < 4096 := (i 1).isLt
  have hi2 : (i 2).val < 64 := (i 2).isLt
  obtain ⟨t, ht⟩ := idx_onto1 ⟨(i 0).val, hi0⟩ ⟨(i 1).val / 512, by omega⟩
  have q0 : win1_7.index t (0 : Fin 3) = (i 0).val := congrFun ht 0
  have q1 : win1_7.index t (1 : Fin 3) = (i 1).val / 512 := congrFun ht 1
  have q2 : win1_7.index t (2 : Fin 3) = 0 := congrFun ht 2
  refine ⟨t, flush1_7 t, ?_⟩
  rw [mem_blk1]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 512 ≤ (i 1).val ∧ (i 1).val < win1_7.index t (1 : Fin 3) * 512 + 512; omega
  | ⟨2, _⟩ => show win1_7.index t (2 : Fin 3) * 64 ≤ (i 2).val ∧ (i 2).val < win1_7.index t (2 : Fin 3) * 64 + 64; omega

end Value1

/-- The 64 tiles are blocks of one array, the layer, and cover it. -/
theorem final1 (c : Dev nD) : (dat1 (F := Ideal) V c).arrAt 7 cfg1.N
    = fun j => Cert.LayerSpec.layer (fun b n k => adjA1 V c (ix3 b n k)) (fun b n d => egoA1 V c (ix3 b n d)) (fun e d => gwA1 V c (ix2 d e)) (fun e => gbA1 V c (ix2 (0 : Fin 1) e))
        (fun e d => bwA1 V c (ix2 d e)) (fun e => bbA1 V c (ix2 (0 : Fin 1) e)) (j 0) (j 1) (j 2) :=
  (dat1 (F := Ideal) V c).arrAt_eq_of_cover 7 (Value1.layerA1 V c) (fun t _ => Value1.flushed1_eq V c t) Value1.covered1

end Cert.KernelIdeal.Layer

end
-- ==== Proof.KIValue2.lean ====
import proofs.«136874_j78494822302010_1_alg».proof.Proof.KIRegion2
import proofs.«136874_j78494822302010_1_alg».proof.Proof.KIBody

set_option maxRecDepth 16384

noncomputable section

namespace Cert.KernelIdeal.Layer

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

abbrev adjA2 (c : Dev nD) : Vec Ideal S8x4096x4096 .f32 := V c main_arg2
abbrev egoA2 (c : Dev nD) : Vec Ideal S8x4096x64 .f32 := V c main_v36
abbrev gwA2 (c : Dev nD) : Vec Ideal S64x64 .f32 := V c main_v38
abbrev gbA2 (c : Dev nD) : Vec Ideal S1x64 .f32 := V c main_v40
abbrev bwA2 (c : Dev nD) : Vec Ideal S64x64 .f32 := V c main_v42
abbrev bbA2 (c : Dev nD) : Vec Ideal S1x64 .f32 := V c main_v44

namespace Value2

abbrev adjB (c : Dev nD) (t : Fin cfg2.N) : Vec Ideal S1x512x4096 .f32 := iblk2 V c 0 t
abbrev egoB (c : Dev nD) (t : Fin cfg2.N) : Vec Ideal S1x4096x64 .f32 := iblk2 V c 1 t
abbrev egoT (c : Dev nD) (t : Fin cfg2.N) : Vec Ideal S1x512x64 .f32 := iblk2 V c 2 t
abbrev gwB (c : Dev nD) (t : Fin cfg2.N) : Vec Ideal S64x64 .f32 := iblk2 V c 3 t
abbrev gbB (c : Dev nD) (t : Fin cfg2.N) : Vec Ideal S1x64 .f32 := iblk2 V c 4 t
abbrev bwB (c : Dev nD) (t : Fin cfg2.N) : Vec Ideal S64x64 .f32 := iblk2 V c 5 t
abbrev bbB (c : Dev nD) (t : Fin cfg2.N) : Vec Ideal S1x64 .f32 := iblk2 V c 6 t

/-- A grid point is a pair (batch, row tile); every window's block index is read off that pair. -/
theorem idx_facts2 : ∀ t : Fin cfg2.N,
    win2_0.index t (0 : Fin 3) = win2_7.index t (0 : Fin 3) ∧ win2_0.index t (1 : Fin 3) = win2_7.index t (1 : Fin 3) ∧ win2_0.index t (2 : Fin 3) = 0
    ∧ win2_1.index t (0 : Fin 3) = win2_7.index t (0 : Fin 3) ∧ win2_1.index t (1 : Fin 3) = 0 ∧ win2_1.index t (2 : Fin 3) = 0
    ∧ win2_2.index t (0 : Fin 3) = win2_7.index t (0 : Fin 3) ∧ win2_2.index t (1 : Fin 3) = win2_7.index t (1 : Fin 3) ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 3) ≤ 7 ∧ win2_7.index t (1 : Fin 3) ≤ 7 ∧ win2_7.index t (2 : Fin 3) = 0 :=
  (by decide +kernel : ∀ t : Fin grid2.N, _)

theorem idx_onto2 : ∀ (q0 : Fin 8) (q1 : Fin 8), ∃ t : Fin cfg2.N, win2_7.index t = ![q0.val, q1.val, 0] :=
  (by decide +kernel : ∀ (q0 : Fin 8) (q1 : Fin 8), ∃ t : Fin grid2.N, win2_7.index t = ![q0.val, q1.val, 0])

/-- At the point of tile (b, n div 512) every input block is its array restricted to batch b (and to the tile's rows). -/
theorem blocks2 (c : Dev nD) (t : Fin cfg2.N) (b : Fin 8) (n : Fin 4096) (r : Fin 512)
    (hb : win2_7.index t (0 : Fin 3) = b.val) (hn : win2_7.index t (1 : Fin 3) * 512 + r.val = n.val) :
    (∀ k, adjB V c t (ix3 (0 : Fin 1) r k) = adjA2 V c (ix3 b n k)) ∧ (∀ k d, egoB V c t (ix3 (0 : Fin 1) k d) = egoA2 V c (ix3 b k d))
    ∧ (∀ d, egoT V c t (ix3 (0 : Fin 1) r d) = egoA2 V c (ix3 b n d))
    ∧ (∀ d e, gwB V c t (ix2 d e) = gwA2 V c (ix2 d e)) ∧ (∀ e, gbB V c t (ix2 (0 : Fin 1) e) = gbA2 V c (ix2 (0 : Fin 1) e))
    ∧ (∀ d e, bwB V c t (ix2 d e) = bwA2 V c (ix2 d e)) ∧ (∀ e, bbB V c t (ix2 (0 : Fin 1) e) = bbA2 V c (ix2 (0 : Fin 1) e)) := by
  have hf := idx_facts2 t
  refine ⟨fun k => congrArg (V c main_arg2) (funext fun a => Fin.ext ?_), fun k d => congrArg (V c main_v36) (funext fun a => Fin.ext ?_),
    fun d => congrArg (V c main_v36) (funext fun a => Fin.ext ?_), fun d e => congrArg (V c main_v38) (funext fun a => Fin.ext ?_),
    fun e => congrArg (V c main_v40) (funext fun a => Fin.ext ?_), fun d e => congrArg (V c main_v42) (funext fun a => Fin.ext ?_),
    fun e => congrArg (V c main_v44) (funext fun a => Fin.ext ?_)⟩
  · match a with
    | ⟨0, _⟩ => show win2_0.index t (0 : Fin 3) * 1 + 1 * (0 : Nat) = b.val; omega
    | ⟨1, _⟩ => show win2_0.index t (1 : Fin 3) * 512 + 1 * r.val = n.val; omega
    | ⟨2, _⟩ => show win2_0.index t (2 : Fin 3) * 4096 + 1 * k.val = k.val; omega
  · match a with
    | ⟨0, _⟩ => show win2_1.index t (0 : Fin 3) * 1 + 1 * (0 : Nat) = b.val; omega
    | ⟨1, _⟩ => show win2_1.index t (1 : Fin 3) * 4096 + 1 * k.val = k.val; omega
    | ⟨2, _⟩ => show win2_1.index t (2 : Fin 3) * 64 + 1 * d.val = d.val; omega
  · match a with
    | ⟨0, _⟩ => show win2_2.index t (0 : Fin 3) * 1 + 1 * (0 : Nat) = b.val; omega
    | ⟨1, _⟩ => show win2_2.index t (1 : Fin 3) * 512 + 1 * r.val = n.val; omega
    | ⟨2, _⟩ => show win2_2.index t (2 : Fin 3) * 64 + 1 * d.val = d.val; omega
  · match a with
    | ⟨0, _⟩ => show win2_3.index t (0 : Fin 2) * 64 + 1 * d.val = d.val; omega
    | ⟨1, _⟩ => show win2_3.index t (1 : Fin 2) * 64 + 1 * e.val = e.val; omega
  · match a with
    | ⟨0, _⟩ => show win2_4.index t (0 : Fin 2) * 1 + 1 * (0 : Nat) = (0 : Nat); omega
    | ⟨1, _⟩ => show win2_4.index t (1 : Fin 2) * 64 + 1 * e.val = e.val; omega
  · match a with
    | ⟨0, _⟩ => show win2_5.index t (0 : Fin 2) * 64 + 1 * d.val = d.val; omega
    | ⟨1, _⟩ => show win2_5.index t (1 : Fin 2) * 64 + 1 * e.val = e.val; omega
  · match a with
    | ⟨0, _⟩ => show win2_6.index t (0 : Fin 2) * 1 + 1 * (0 : Nat) = (0 : Nat); omega
    | ⟨1, _⟩ => show win2_6.index t (1 : Fin 2) * 64 + 1 * e.val = e.val; omega

abbrev layerA2 (c : Dev nD) : Vec Ideal S8x4096x64 .f32 :=
  fun j => Cert.LayerSpec.layer (fun b n k => adjA2 V c (ix3 b n k)) (fun b n d => egoA2 V c (ix3 b n d)) (fun e d => gwA2 V c (ix2 d e)) (fun e => gbA2 V c (ix2 (0 : Fin 1) e))
        (fun e d => bwA2 V c (ix2 d e)) (fun e => bbA2 V c (ix2 (0 : Fin 1) e)) (j 0) (j 1) (j 2)

/-- Row r, feature e of a point's tile is the layer at (b, n, e) with n = 512 · tile + r. -/
theorem tile_blocks2 (c : Dev nD) (t : Fin cfg2.N) (b : Fin 8) (n : Fin 4096) (r : Fin 512) (e : Fin 64)
    (hb : win2_7.index t (0 : Fin 3) = b.val) (hn : win2_7.index t (1 : Fin 3) * 512 + r.val = n.val) :
    outTile (F := Ideal) (adjB V c t) (egoB V c t) (egoT V c t) (gwB V c t) (gbB V c t) (bwB V c t) (bbB V c t) (ix3 (0 : Fin 1) r e)
      = Cert.LayerSpec.layer (fun b n k => adjA2 V c (ix3 b n k)) (fun b n d => egoA2 V c (ix3 b n d)) (fun e d => gwA2 V c (ix2 d e)) (fun e => gbA2 V c (ix2 (0 : Fin 1) e))
        (fun e d => bwA2 V c (ix2 d e)) (fun e => bbA2 V c (ix2 (0 : Fin 1) e)) b n e := by
  obtain ⟨hadj, hego, hrow, hgw, hgb, hbw, hbb⟩ := blocks2 V c t b n r hb hn
  have hside (d : Fin 64) : (∑ k : Fin 4096, adjB V c t (ix3 (0 : Fin 1) r k) * egoB V c t (ix3 (0 : Fin 1) k d))
      = Cert.LayerSpec.side (fun b n k => adjA2 V c (ix3 b n k)) (fun b n d => egoA2 V c (ix3 b n d)) b n d :=
    Finset.sum_congr rfl fun k _ => congrArg₂ (· * ·) (hadj k) (hego k d)
  refine (TileValue.outTile_apply (adjB V c t) (egoB V c t) (egoT V c t) (gwB V c t) (gbB V c t) (bwB V c t) (bbB V c t) r e).trans ?_
  unfold Cert.LayerSpec.layer
  refine congrArg₂ (· + ·) (congrArg Cert.LayerSpec.lrelu (congrArg₂ (· + ·) (Finset.sum_congr rfl fun d _ => ?_) (hgb e)))
    (congrArg Cert.LayerSpec.lrelu (congrArg₂ (· + ·) (Finset.sum_congr rfl fun d _ => ?_) (hbb e)))
  · exact congrArg₂ (· * ·) (hside d) (hgw d e)
  · exact congrArg₂ (· * ·) (congrArg₂ (· * ·) (hrow d) (hside d)) (hbw d e)

/-- A point's tile is its block of the layer. -/
theorem flushed2_eq (c : Dev nD) (t : Fin cfg2.N) :
    (dat2 (F := Ideal) V c).flushed 7 t = ((cfg2.win 7).blk t).view.read (Elt Ideal) (layerA2 V c) := by
  show (cfg2.win 7).cut (grid2.coords t) ((dat2 V c).after 7 t) = _
  rw [after2_7]
  have hf := idx_facts2 t
  funext j
  revert j
  show ∀ j : S1x512x64.Idx, outTile (F := Ideal) (adjB V c t) (egoB V c t) (egoT V c t) (gwB V c t) (gbB V c t) (bwB V c t) (bbB V c t) j
    = layerA2 V c (((cfg2.win 7).blk t).view.emb j)
  intro j
  obtain ⟨u, r, e, rfl⟩ : ∃ (u : Fin 1) (r : Fin 512) (e : Fin 64), j = ix3 u r e := ⟨j 0, j 1, j 2, eq_ix3 j⟩
  obtain rfl : u = 0 := Fin.ext (by omega)
  have hr : r.val < 512 := r.isLt
  have hemb : ((cfg2.win 7).blk t).view.emb (ix3 (0 : Fin 1) r e)
      = ix3 (⟨win2_7.index t (0 : Fin 3), by omega⟩ : Fin 8) (⟨win2_7.index t (1 : Fin 3) * 512 + r.val, by omega⟩ : Fin 4096) e := by
    funext a; apply Fin.ext
    match a with
    | ⟨0, _⟩ => show win2_7.index t (0 : Fin 3) * 1 + 1 * (0 : Nat) = win2_7.index t (0 : Fin 3); omega
    | ⟨1, _⟩ => show win2_7.index t (1 : Fin 3) * 512 + 1 * r.val = win2_7.index t (1 : Fin 3) * 512 + r.val; omega
    | ⟨2, _⟩ => show win2_7.index t (2 : Fin 3) * 64 + 1 * e.val = e.val; omega
  rw [hemb]
  exact tile_blocks2 V c t _ _ r e rfl rfl

theorem mem_blk2 (t : Fin cfg2.N) (i : S8x4096x64.Idx) :
    i ∈ ((cfg2.win 7).blk t).view.set ↔ ∀ a : Fin 3, win2_7.index t a * S1x512x64.size a ≤ (i a).val ∧ (i a).val < win2_7.index t a * S1x512x64.size a + S1x512x64.size a := by
  show i ∈ ((View.whole main_v45).slice (win2_7.rect t)).set ↔ _
  rw [View.set_slice_whole, Rect.mem_set_unit]
  exact Iff.rfl

theorem covered2 (i : S8x4096x64.Idx) : ∃ t : Fin cfg2.N, (cfg2.win 7).flush t = true ∧ i ∈ ((cfg2.win 7).blk t).view.set := by
  have hi0 : (i 0).val < 8 := (i 0).isLt
  have hi1 : (i 1).val < 4096 := (i 1).isLt
  have hi2 : (i 2).val < 64 := (i 2).isLt
  obtain ⟨t, ht⟩ := idx_onto2 ⟨(i 0).val, hi0⟩ ⟨(i 1).val / 512, by omega⟩
  have q0 : win2_7.index t (0 : Fin 3) = (i 0).val := congrFun ht 0
  have q1 : win2_7.index t (1 : Fin 3) = (i 1).val / 512 := congrFun ht 1
  have q2 : win2_7.index t (2 : Fin 3) = 0 := congrFun ht 2
  refine ⟨t, flush2_7 t, ?_⟩
  rw [mem_blk2]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 512 ≤ (i 1).val ∧ (i 1).val < win2_7.index t (1 : Fin 3) * 512 + 512; omega
  | ⟨2, _⟩ => show win2_7.index t (2 : Fin 3) * 64 ≤ (i 2).val ∧ (i 2).val < win2_7.index t (2 : Fin 3) * 64 + 64; omega

end Value2

/-- The 64 tiles are blocks of one array, the layer, and cover it. -/
theorem final2 (c : Dev nD) : (dat2 (F := Ideal) V c).arrAt 7 cfg2.N
    = fun j => Cert.LayerSpec.layer (fun b n k => adjA2 V c (ix3 b n k)) (fun b n d => egoA2 V c (ix3 b n d)) (fun e d => gwA2 V c (ix2 d e)) (fun e => gbA2 V c (ix2 (0 : Fin 1) e))
        (fun e d => bwA2 V c (ix2 d e)) (fun e => bbA2 V c (ix2 (0 : Fin 1) e)) (j 0) (j 1) (j 2) :=
  (dat2 (F := Ideal) V c).arrAt_eq_of_cover 7 (Value2.layerA2 V c) (fun t _ => Value2.flushed2_eq V c t) Value2.covered2

end Cert.KernelIdeal.Layer

end
-- ==== Proof.KIChain.lean ====
import proofs.«136874_j78494822302010_1_alg».proof.Proof.KIFold
import proofs.«136874_j78494822302010_1_alg».proof.Proof.KIHost
import proofs.«136874_j78494822302010_1_alg».proof.Proof.KIValue0
import proofs.«136874_j78494822302010_1_alg».proof.Proof.KIValue1
import proofs.«136874_j78494822302010_1_alg».proof.Proof.KIValue2

noncomputable section

namespace Cert.KernelIdeal.Layer

open Cert.KernelIdeal Cert.KernelIdeal.Gen
open Idealize.ShloMosaic Idealize.ShloMosaic.TcCoe
open Idealize.ShloMosaic.ValueIdx

/-- One layer as an array function of the adjacency, the layer's input, and its two matrices (read transposed) and two bias rows. -/
noncomputable def layerK (a2 : Vec Ideal S8x4096x4096 .f32) (x : Vec Ideal S8x4096x64 .f32) (gw : Vec Ideal S64x64 .f32) (gb : Vec Ideal S1x64 .f32)
    (bw : Vec Ideal S64x64 .f32) (bb : Vec Ideal S1x64 .f32) : Vec Ideal S8x4096x64 .f32 :=
  fun j => LayerSpec.layer (fun b n k => a2 (ix3 b n k)) (fun b n d => x (ix3 b n d)) (fun e d => gw (ix2 d e)) (fun e => gb (ix2 0 e))
    (fun e d => bw (ix2 d e)) (fun e => bb (ix2 0 e)) (j 0) (j 1) (j 2)

section Args

variable (A : Valuation τ sig (Elt Ideal))

/-- The layers' input as a function of the arguments. -/
noncomputable def act0 : Vec Ideal S8x4096x64 .f32 := egoK (A main_arg0) (A main_arg1) (A main_arg3) (A main_arg4)

/-- One layer over the argument stacks, `w` and `b` picking the layer's matrix and bias row out of a stack. -/
noncomputable def step (w : Vec Ideal S3x64x64 .f32 → Vec Ideal S64x64 .f32) (b : Vec Ideal S3x1x64 .f32 → Vec Ideal S1x64 .f32)
    (x : Vec Ideal S8x4096x64 .f32) : Vec Ideal S8x4096x64 .f32 :=
  layerK (A main_arg2) x (w (tpK (A main_arg5))) (b (rsK (A main_arg6))) (w (tpK (A main_arg7))) (b (rsK (A main_arg8)))

end Args

variable (m : (ℓ : Loc nD τ sig) → Buf (Elt Ideal) ℓ) (c : Dev nD)

/-- A buffer that a stretch or a layer call does not write keeps its contents across it. -/
theorem W1_of {r : Ref sig .tc} (h : r ∉ hostOps0_W := by decide) : W1 m c r = W0 m c r :=
  StableHlo.after_of_writes_sub hostOps0 _ hostOps0_writes h
theorem W2_of {r : Ref sig .tc} {v} (hv : W1 m c r = v) (h : r ≠ main_v27 := by decide) : W2 m c r = v := by
  unfold W2; exact (Function.update_of_ne (StableHlo.devRef_ne_of_ne h) _ _).trans hv
theorem W3_of {r : Ref sig .tc} {v} (hv : W2 m c r = v) (h : r ∉ hostOps1_W := by decide) : W3 m c r = v :=
  (StableHlo.after_of_writes_sub hostOps1 _ hostOps1_writes h).trans hv
theorem W4_of {r : Ref sig .tc} {v} (hv : W3 m c r = v) (h : r ≠ main_v36 := by decide) : W4 m c r = v := by
  unfold W4; exact (Function.update_of_ne (StableHlo.devRef_ne_of_ne h) _ _).trans hv
theorem W5_of {r : Ref sig .tc} {v} (hv : W4 m c r = v) (h : r ∉ hostOps2_W := by decide) : W5 m c r = v :=
  (StableHlo.after_of_writes_sub hostOps2 _ hostOps2_writes h).trans hv

/-- The first layer call leaves layer 0 of the gathered embeddings in its output array. -/
theorem out0_eq : (dat0 (R1 m) c).arrAt 7 cfg0.N = step (W0 m c) wK0 bK0 (act0 (W0 m c)) :=
  (final0 (R1 m) c).trans (congr (congr (congr (congr (congr (congrArg layerK (W1_of m c)) (after0_v14 _)) (after0_v20 _)) (after0_v22 _))
    (after0_v24 _)) (after0_v26 _))

/-- The second leaves layer 1 of that. -/
theorem out1_eq : (dat1 (R3 m) c).arrAt 7 cfg1.N = step (W0 m c) wK1 bK1 (step (W0 m c) wK0 bK0 (act0 (W0 m c))) :=
  (final1 (R3 m) c).trans (congr (congr (congr (congr (congr (congrArg layerK (W3_of m c (W2_of m c (W1_of m c))))
      (W3_of m c (by unfold W2; rw [Function.update_self]; exact out0_eq m c)))
      ((after1_v29 _).trans (congrArg wK1 (W2_of m c (after0_v15 _))))) ((after1_v31 _).trans (congrArg bK1 (W2_of m c (after0_v17 _)))))
      ((after1_v33 _).trans (congrArg wK1 (W2_of m c (after0_v16 _))))) ((after1_v35 _).trans (congrArg bK1 (W2_of m c (after0_v18 _)))))

/-- The third leaves layer 2 of that. -/
theorem out2_eq : (dat2 (R5 m) c).arrAt 7 cfg2.N
    = step (W0 m c) wK2 bK2 (step (W0 m c) wK1 bK1 (step (W0 m c) wK0 bK0 (act0 (W0 m c)))) :=
  (final2 (R5 m) c).trans (congr (congr (congr (congr (congr (congrArg layerK (W5_of m c (W4_of m c (W3_of m c (W2_of m c (W1_of m c))))))
      (W5_of m c (by unfold W4; rw [Function.update_self]; exact out1_eq m c)))
      ((after2_v38 _).trans (congrArg wK2 (W4_of m c (W3_of m c (W2_of m c (after0_v15 _)))))))
      ((after2_v40 _).trans (congrArg bK2 (W4_of m c (W3_of m c (W2_of m c (after0_v17 _)))))))
      ((after2_v42 _).trans (congrArg wK2 (W4_of m c (W3_of m c (W2_of m c (after0_v16 _)))))))
      ((after2_v44 _).trans (congrArg bK2 (W4_of m c (W3_of m c (W2_of m c (after0_v18 _)))))))

/-- The program's result: the closing score of the three layers applied in turn to the gathered embeddings. -/
theorem result_eq : W9 m c main_v52
    = tailK (step (W0 m c) wK2 bK2 (step (W0 m c) wK1 bK1 (step (W0 m c) wK0 bK0 (act0 (W0 m c))))) :=
  (after3_v52 (W6 m c)).trans (congrArg tailK (by unfold W6; rw [Function.update_self]; exact out2_eq m c))

end Cert.KernelIdeal.Layer

end
-- ==== Proof.RefDefs.lean ====
import proofs.«136874_j78494822302010_1_alg».proof.Proof.Gen.ReferenceIdeal

noncomputable section

namespace Cert.ReferenceIdeal.RefValue

open Cert.ReferenceIdeal Idealize.ShloMosaic
open Cert.ReferenceIdeal.Facts₀ Cert.ReferenceIdeal.Facts

variable {F : FTy → Type} [FloatOps F]

noncomputable def rowsT (tab : (⟨S100000x64, .f32⟩ : BufTy).Contents (Elt F)) (idx : (⟨S8x2048, .i32⟩ : BufTy).Contents (Elt F)) :
    (⟨S8x2048x64, .f32⟩ : BufTy).Contents (Elt F) :=
  Host.gather gather_S100000x64_S8x2048x1_S8x2048x64_2_0_n_n_0_2_164 tab
    (broadcastInDim S8x2048x1 ![0, 1] bcast_S8x2048_S8x2048x1_0_1
      (select (cmpi .slt idx (broadcastInDim S8x2048 ![] bcast_S_S8x2048 (constantI S_ 32 0#32)))
        (addi idx (broadcastInDim S8x2048 ![] bcast_S_S8x2048 (constantI S_ 32 100000#32))) idx))

noncomputable def egoT (a0 a1 : (⟨S8x2048, .i32⟩ : BufTy).Contents (Elt F)) (a3 a4 : (⟨S100000x64, .f32⟩ : BufTy).Contents (Elt F)) :
    (⟨S8x4096x64, .f32⟩ : BufTy).Contents (Elt F) :=
  concatenate S8x4096x64 1 [⟨S8x2048x64, rowsT a3 a0⟩, ⟨S8x2048x64, rowsT a4 a1⟩] concatenates_S8x2048x64_S8x2048x64_S8x4096x64_d1

noncomputable def w0 (a : (⟨S3x64x64, .f32⟩ : BufTy).Contents (Elt F)) : (⟨S64x64, .f32⟩ : BufTy).Contents (Elt F) :=
  shapeCast S64x64 (extractStridedSlice S1x64x64 ![0, 0, 0] a slices_S3x64x64_S1x64x64_0_0_0) shapeCasts_S1x64x64_S64x64
noncomputable def w1 (a : (⟨S3x64x64, .f32⟩ : BufTy).Contents (Elt F)) : (⟨S64x64, .f32⟩ : BufTy).Contents (Elt F) :=
  shapeCast S64x64 (extractStridedSlice S1x64x64 ![1, 0, 0] a slices_S3x64x64_S1x64x64_1_0_0) shapeCasts_S1x64x64_S64x64
noncomputable def w2 (a : (⟨S3x64x64, .f32⟩ : BufTy).Contents (Elt F)) : (⟨S64x64, .f32⟩ : BufTy).Contents (Elt F) :=
  shapeCast S64x64 (extractStridedSlice S1x64x64 ![2, 0, 0] a slices_S3x64x64_S1x64x64_2_0_0) shapeCasts_S1x64x64_S64x64
noncomputable def b0 (a : (⟨S3x64, .f32⟩ : BufTy).Contents (Elt F)) : (⟨S64, .f32⟩ : BufTy).Contents (Elt F) :=
  shapeCast S64 (extractStridedSlice S1x64 ![0, 0] a slices_S3x64_S1x64_0_0) shapeCasts_S1x64_S64
noncomputable def b1 (a : (⟨S3x64, .f32⟩ : BufTy).Contents (Elt F)) : (⟨S64, .f32⟩ : BufTy).Contents (Elt F) :=
  shapeCast S64 (extractStridedSlice S1x64 ![1, 0] a slices_S3x64_S1x64_1_0) shapeCasts_S1x64_S64
noncomputable def b2 (a : (⟨S3x64, .f32⟩ : BufTy).Contents (Elt F)) : (⟨S64, .f32⟩ : BufTy).Contents (Elt F) :=
  shapeCast S64 (extractStridedSlice S1x64 ![2, 0] a slices_S3x64_S1x64_2_0) shapeCasts_S1x64_S64

noncomputable def lreluT (x : (⟨S8x4096x64, .f32⟩ : BufTy).Contents (Elt F)) : (⟨S8x4096x64, .f32⟩ : BufTy).Contents (Elt F) :=
  select (cmpf .oge x (broadcastInDim S8x4096x64 ![] bcast_S_S8x4096x64 (constant S_ .f32 0x00000000#32))) x
    (mulf (broadcastInDim S8x4096x64 ![] bcast_S_S8x4096x64 (constant S_ .f32 0x3C23D70A#32)) x)

noncomputable def biasT (b : (⟨S64, .f32⟩ : BufTy).Contents (Elt F)) : (⟨S8x4096x64, .f32⟩ : BufTy).Contents (Elt F) :=
  broadcastInDim S8x4096x64 ![0, 1, 2] bcast_S1x1x64_S8x4096x64_0_1_2 (broadcastInDim S1x1x64 ![2] bcast_S64_S1x1x64_2 b)

noncomputable def sideT (a2 : (⟨S8x4096x4096, .f32⟩ : BufTy).Contents (Elt F)) (ego : (⟨S8x4096x64, .f32⟩ : BufTy).Contents (Elt F)) :
    (⟨S8x4096x64, .f32⟩ : BufTy).Contents (Elt F) :=
  Host.dotGeneral dot_S8x4096x4096_S8x4096x64_S8x4096x64_2_1_1_2_0_0 none a2 ego

noncomputable def layerT (a2 : (⟨S8x4096x4096, .f32⟩ : BufTy).Contents (Elt F)) (ego : (⟨S8x4096x64, .f32⟩ : BufTy).Contents (Elt F))
    (gw : (⟨S64x64, .f32⟩ : BufTy).Contents (Elt F)) (gb : (⟨S64, .f32⟩ : BufTy).Contents (Elt F))
    (bw : (⟨S64x64, .f32⟩ : BufTy).Contents (Elt F)) (bb : (⟨S64, .f32⟩ : BufTy).Contents (Elt F)) :
    (⟨S8x4096x64, .f32⟩ : BufTy).Contents (Elt F) :=
  addf
    (lreluT (addf (Host.dotGeneral dot_S8x4096x64_S64x64_S8x4096x64_2_1_01_0_n_n none (sideT a2 ego) gw) (biasT gb)))
    (lreluT (addf (Host.dotGeneral dot_S8x4096x64_S64x64_S8x4096x64_2_1_01_0_n_n none (mulf ego (sideT a2 ego)) bw) (biasT bb)))

noncomputable def shiftT (s : (⟨S8x2048x1, .f32⟩ : BufTy).Contents (Elt F)) : (⟨S8x2048x1, .f32⟩ : BufTy).Contents (Elt F) :=
  subf s (broadcastInDim S8x2048x1 ![0, 1] bcast_S8x2048_S8x2048x1_0_1
    (maximumf (broadcastInDim S8x2048 ![] bcast_S_S8x2048 (constant S_ .f32 0xFF800000#32))
      (Host.reduce FloatOps.maximumf s (constant S_ .f32 0xFF800000#32) reducesTo_S8x2048x1_S8x2048_d2 h_S_)))

noncomputable def lsmT (s : (⟨S8x2048x1, .f32⟩ : BufTy).Contents (Elt F)) : (⟨S8x2048x1, .f32⟩ : BufTy).Contents (Elt F) :=
  subf (shiftT s) (Host.log (broadcastInDim S8x2048x1 ![0, 1] bcast_S8x2048_S8x2048x1_0_1
    (Host.reduceAdd (Host.exp (shiftT s)) (constant S_ .f32 0x00000000#32) reducesTo_S8x2048x1_S8x2048_d2 h_S_)))

noncomputable def tailT (x : (⟨S8x4096x64, .f32⟩ : BufTy).Contents (Elt F)) : (⟨S16384x1, .f32⟩ : BufTy).Contents (Elt F) :=
  shapeCast S16384x1 (lsmT (broadcastInDim S8x2048x1 ![0, 1] bcast_S8x2048_S8x2048x1_0_1
    (Host.reduceAdd (mulf (extractStridedSlice S8x2048x64 ![0, 0, 0] x slices_S8x4096x64_S8x2048x64_0_0_0)
        (extractStridedSlice S8x2048x64 ![0, 2048, 0] x slices_S8x4096x64_S8x2048x64_0_2048_0))
      (constant S_ .f32 0x00000000#32) reducesTo_S8x2048x64_S8x2048_d2 h_S_))) shapeCasts_S8x2048x1_S16384x1

noncomputable def refOut (a0 a1 : (⟨S8x2048, .i32⟩ : BufTy).Contents (Elt F)) (a2 : (⟨S8x4096x4096, .f32⟩ : BufTy).Contents (Elt F))
    (a3 a4 : (⟨S100000x64, .f32⟩ : BufTy).Contents (Elt F)) (a5 : (⟨S3x64x64, .f32⟩ : BufTy).Contents (Elt F))
    (a6 : (⟨S3x64, .f32⟩ : BufTy).Contents (Elt F)) (a7 : (⟨S3x64x64, .f32⟩ : BufTy).Contents (Elt F))
    (a8 : (⟨S3x64, .f32⟩ : BufTy).Contents (Elt F)) : (⟨S16384x1, .f32⟩ : BufTy).Contents (Elt F) :=
  tailT (layerT a2 (layerT a2 (layerT a2 (egoT a0 a1 a3 a4) (w0 a5) (b0 a6) (w0 a7) (b0 a8)) (w1 a5) (b1 a6) (w1 a7) (b1 a8))
    (w2 a5) (b2 a6) (w2 a7) (b2 a8))

end Cert.ReferenceIdeal.RefValue

end
-- ==== Proof.RefRun.lean ====
import proofs.«136874_j78494822302010_1_alg».proof.Proof.RefDefs
import Idealize.ShloMosaic.Lib.StableHlo.Run
import Idealize.ShloMosaic.Lib.Pipeline.Frame

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

abbrev Rf (s : Shape) := TRef sig ⟨s, .f32⟩
abbrev Ri (s : Shape) := TRef sig ⟨s, .i32⟩

-- A table's rows at an index array whose negative entries are first moved up by the table's height.
noncomputable abbrev opsRows (tab : Rf S100000x64) (idx : Ri S8x2048) (c : Ri S_) (v0 : Ri S8x2048) (v1 : TRef sig ⟨S8x2048, .i1⟩) (c0 : Ri S_)
    (v2 v3 v4 : Ri S8x2048) (v5 : Ri S8x2048x1) (v6 : Rf S8x2048x64) : List (HloOp τ sig (Elt F)) :=
  [ TRef.nullary c (constantI S_ 32 0#32),
    TRef.unary c v0 (broadcastInDim S8x2048 ![] bcast_S_S8x2048),
    TRef.binary idx v0 v1 (cmpi .slt),
    TRef.nullary c0 (constantI S_ 32 100000#32),
    TRef.unary c0 v2 (broadcastInDim S8x2048 ![] bcast_S_S8x2048),
    TRef.binary idx v2 v3 addi,
    TRef.ternary v1 v3 idx v4 select,
    TRef.unary v4 v5 (broadcastInDim S8x2048x1 ![0, 1] bcast_S8x2048_S8x2048x1_0_1),
    TRef.binary tab v5 v6 (fun x i => Host.gather gather_S100000x64_S8x2048x1_S8x2048x64_2_0_n_n_0_2_164 x i) ]

-- The layers' input: the user rows, the item rows, and the two laid along the node axis.
noncomputable abbrev opsE : List (HloOp τ sig (Elt F)) :=
  opsRows (.of main_arg3) (.of main_arg0) (.of main_c) (.of main_v0) (.of main_v1) (.of main_c_0) (.of main_v2) (.of main_v3) (.of main_v4) (.of main_v5) (.of main_v6)
  ++ opsRows (.of main_arg4) (.of main_arg1) (.of main_c_1) (.of main_v7) (.of main_v8) (.of main_c_2) (.of main_v9) (.of main_v10) (.of main_v11) (.of main_v12) (.of main_v13)
  ++ [TRef.binary (.of main_v6 : Rf S8x2048x64) (.of main_v13 : Rf S8x2048x64) (.of main_v14 : Rf S8x4096x64)
        (fun a b => concatenate S8x4096x64 1 [⟨S8x2048x64, a⟩, ⟨S8x2048x64, b⟩] concatenates_S8x2048x64_S8x2048x64_S8x4096x64_d1)]

-- One branch of a layer: x against a slice of the stacked matrices, plus a slice of the stacked rows, through the leaky rectifier.
noncomputable abbrev opsB (x : Rf S8x4096x64) (ws : Rf S3x64x64) (bs : Rf S3x64) (o₃ : Fin S3x64x64.rank → ℕ) (h₃ : S3x64x64.Slices o₃ S1x64x64)
    (o₂ : Fin S3x64.rank → ℕ) (h₂ : S3x64.Slices o₂ S1x64) (r1 : Rf S1x64x64) (r2 : Rf S64x64) (r3 : Rf S8x4096x64) (r4 : Rf S1x64)
    (r5 : Rf S64) (r6 : Rf S1x1x64) (r7 r8 : Rf S8x4096x64) (φ : fn_leaky_relu.Bufs) : List (HloOp τ sig (Elt F)) :=
  [ TRef.unary ws r1 (extractStridedSlice S1x64x64 o₃ · h₃),
    TRef.reshape r1 r2 rfl shapeCasts_S1x64x64_S64x64,
    TRef.binary x r2 r3 (fun l r => Host.dotGeneral dot_S8x4096x64_S64x64_S8x4096x64_2_1_01_0_n_n none l r),
    TRef.unary bs r4 (extractStridedSlice S1x64 o₂ · h₂),
    TRef.reshape r4 r5 rfl shapeCasts_S1x64_S64,
    TRef.unary r5 r6 (broadcastInDim S1x1x64 ![2] bcast_S64_S1x1x64_2),
    TRef.unary r6 r7 (broadcastInDim S8x4096x64 ![0, 1, 2] bcast_S1x1x64_S8x4096x64_0_1_2),
    TRef.binary r3 r7 r8 addf,
    TRef.nullary φ.cst (constant S_ .f32 0x00000000#32),
    TRef.unary φ.cst φ.v0 (broadcastInDim S8x4096x64 ![] bcast_S_S8x4096x64),
    TRef.binary r8 φ.v0 φ.v1 (cmpf .oge),
    TRef.nullary φ.cst_0 (constant S_ .f32 0x3C23D70A#32),
    TRef.unary φ.cst_0 φ.v2 (broadcastInDim S8x4096x64 ![] bcast_S_S8x4096x64),
    TRef.binary φ.v2 r8 φ.v3 mulf,
    TRef.ternary φ.v1 r8 φ.v3 φ.call0.v0 select ]

-- One layer: the propagation along the graph, the two branches, and their sum.
noncomputable abbrev opsL (o₃ : Fin S3x64x64.rank → ℕ) (h₃ : S3x64x64.Slices o₃ S1x64x64) (o₂ : Fin S3x64.rank → ℕ) (h₂ : S3x64.Slices o₂ S1x64)
    (x s : Rf S8x4096x64) (g1 : Rf S1x64x64) (g2 : Rf S64x64) (g3 : Rf S8x4096x64) (g4 : Rf S1x64) (g5 : Rf S64) (g6 : Rf S1x1x64)
    (g7 g8 : Rf S8x4096x64) (φ : fn_leaky_relu.Bufs) (m : Rf S8x4096x64) (b1 : Rf S1x64x64) (b2 : Rf S64x64) (b3 : Rf S8x4096x64)
    (b4 : Rf S1x64) (b5 : Rf S64) (b6 : Rf S1x1x64) (b7 b8 : Rf S8x4096x64) (ψ : fn_leaky_relu.Bufs) (y : Rf S8x4096x64) :
    List (HloOp τ sig (Elt F)) :=
  TRef.binary (.of main_arg2 : Rf S8x4096x4096) x s (fun l r => Host.dotGeneral dot_S8x4096x4096_S8x4096x64_S8x4096x64_2_1_1_2_0_0 none l r)
    :: opsB s (.of main_arg5) (.of main_arg6) o₃ h₃ o₂ h₂ g1 g2 g3 g4 g5 g6 g7 g8 φ
    ++ TRef.binary x s m mulf
    :: opsB m (.of main_arg7) (.of main_arg8) o₃ h₃ o₂ h₂ b1 b2 b3 b4 b5 b6 b7 b8 ψ
    ++ [TRef.binary φ.call0.v0 ψ.call0.v0 y addf]

noncomputable abbrev opsL0 : List (HloOp τ sig (Elt F)) :=
  opsL ![0, 0, 0] slices_S3x64x64_S1x64x64_0_0_0 ![0, 0] slices_S3x64_S1x64_0_0 (.of main_v14) (.of main_v15) (.of main_v16) (.of main_v17)
    (.of main_v18) (.of main_v19) (.of main_v20) (.of main_v21) (.of main_v22) (.of main_v23) main_call0 (.of main_v25) (.of main_v26)
    (.of main_v27) (.of main_v28) (.of main_v29) (.of main_v30) (.of main_v31) (.of main_v32) (.of main_v33) main_call1 (.of main_v35)

noncomputable abbrev opsL1 : List (HloOp τ sig (Elt F)) :=
  opsL ![1, 0, 0] slices_S3x64x64_S1x64x64_1_0_0 ![1, 0] slices_S3x64_S1x64_1_0 (.of main_v35) (.of main_v36) (.of main_v37) (.of main_v38)
    (.of main_v39) (.of main_v40) (.of main_v41) (.of main_v42) (.of main_v43) (.of main_v44) main_call2 (.of main_v46) (.of main_v47)
    (.of main_v48) (.of main_v49) (.of main_v50) (.of main_v51) (.of main_v52) (.of main_v53) (.of main_v54) main_call3 (.of main_v56)

noncomputable abbrev opsL2 : List (HloOp τ sig (Elt F)) :=
  opsL ![2, 0, 0] slices_S3x64x64_S1x64x64_2_0_0 ![2, 0] slices_S3x64_S1x64_2_0 (.of main_v56) (.of main_v57) (.of main_v58) (.of main_v59)
    (.of main_v60) (.of main_v61) (.of main_v62) (.of main_v63) (.of main_v64) (.of main_v65) main_call4 (.of main_v67) (.of main_v68)
    (.of main_v69) (.of main_v70) (.of main_v71) (.of main_v72) (.of main_v73) (.of main_v74) (.of main_v75) main_call5 (.of main_v77)

-- The closing score: the two halves' product summed over features, its log-softmax along the one-element axis, flattened.
noncomputable abbrev opsTail : List (HloOp τ sig (Elt F)) :=
  let x : Rf S8x4096x64 := .of main_v77
  let v78 : Rf S8x2048x64 := .of main_v78
  let v79 : Rf S8x2048x64 := .of main_v79
  let v80 : Rf S8x2048x64 := .of main_v80
  let cst : Rf S_ := .of main_cst
  let v81 : Rf S8x2048 := .of main_v81
  let v82 : Rf S8x2048x1 := .of main_v82
  let φ := main_call6
  [ TRef.unary x v78 (extractStridedSlice S8x2048x64 ![0, 0, 0] · slices_S8x4096x64_S8x2048x64_0_0_0),
    TRef.unary x v79 (extractStridedSlice S8x2048x64 ![0, 2048, 0] · slices_S8x4096x64_S8x2048x64_0_2048_0),
    TRef.binary v78 v79 v80 mulf,
    TRef.nullary cst (constant S_ .f32 0x00000000#32),
    TRef.binary v80 cst v81 (fun x v => Host.reduceAdd x v reducesTo_S8x2048x64_S8x2048_d2 h_S_),
    TRef.unary v81 v82 (broadcastInDim S8x2048x1 ![0, 1] bcast_S8x2048_S8x2048x1_0_1),
    TRef.nullary φ.cst (constant S_ .f32 0xFF800000#32),
    TRef.binary v82 φ.cst φ.v0 (fun x v => Host.reduce FloatOps.maximumf x v reducesTo_S8x2048x1_S8x2048_d2 h_S_),
    TRef.nullary φ.cst_0 (constant S_ .f32 0xFF800000#32),
    TRef.unary φ.cst_0 φ.v1 (broadcastInDim S8x2048 ![] bcast_S_S8x2048),
    TRef.binary φ.v1 φ.v0 φ.v2 maximumf,
    TRef.unary φ.v2 φ.v3 (broadcastInDim S8x2048x1 ![0, 1] bcast_S8x2048_S8x2048x1_0_1),
    TRef.binary v82 φ.v3 φ.v4 subf,
    TRef.unary φ.v4 φ.v5 Host.exp,
    TRef.nullary φ.cst_1 (constant S_ .f32 0x00000000#32),
    TRef.binary φ.v5 φ.cst_1 φ.v6 (fun x v => Host.reduceAdd x v reducesTo_S8x2048x1_S8x2048_d2 h_S_),
    TRef.unary φ.v6 φ.v7 (broadcastInDim S8x2048x1 ![0, 1] bcast_S8x2048_S8x2048x1_0_1),
    TRef.unary φ.v7 φ.v8 Host.log,
    TRef.binary φ.v4 φ.v8 φ.v9 subf,
    TRef.reshape φ.v9 (.of main_v84 : Rf S16384x1) rfl shapeCasts_S8x2048x1_S16384x1 ]

noncomputable abbrev opsAll : List (HloOp τ sig (Elt F)) := opsE ++ (opsL0 ++ (opsL1 ++ (opsL2 ++ opsTail)))

theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

theorem ops_sub : (opsAll : List (HloOp τ sig (Elt F))).Forall fun op => op.bufs ⊆ tcRefs τ sig := by
  repeat' apply And.intro
  all_goals simp only [List.Forall, nullary_bufs_sub, unary_bufs_sub, binary_bufs_sub, ternary_bufs_sub, reshape_bufs_sub]

theorem ops_fresh : ∀ op ∈ (opsAll : List (HloOp τ sig (Elt F))), op.fresh = ∅ := by
  refine List.forall_iff_forall_mem.1 ?_
  repeat' apply And.intro
  all_goals exact rfl

attribute [local irreducible] Host.gather Host.reduce Host.reduceAdd concatenate in
theorem ego_out (V : Valuation τ sig (Elt F)) :
    after opsE V (main_v14 : DevRef τ sig) = egoT (V main_arg0) (V main_arg1) (V main_arg3) (V main_arg4) := rfl

-- Each layer's operations are `layerT` spelled out, over its own slices of the stacked parameters.
attribute [local irreducible] Host.gather Host.reduce Host.reduceAdd concatenate in
theorem layer_out (V : Valuation τ sig (Elt F)) :
    after opsL0 V (main_v35 : DevRef τ sig)
        = layerT (V main_arg2) (V main_v14) (w0 (V main_arg5)) (b0 (V main_arg6)) (w0 (V main_arg7)) (b0 (V main_arg8))
      ∧ after opsL1 V (main_v56 : DevRef τ sig)
        = layerT (V main_arg2) (V main_v35) (w1 (V main_arg5)) (b1 (V main_arg6)) (w1 (V main_arg7)) (b1 (V main_arg8))
      ∧ after opsL2 V (main_v77 : DevRef τ sig)
        = layerT (V main_arg2) (V main_v56) (w2 (V main_arg5)) (b2 (V main_arg6)) (w2 (V main_arg7)) (b2 (V main_arg8)) :=
  ⟨rfl, rfl, rfl⟩

attribute [local irreducible] Host.gather Host.reduce Host.reduceAdd concatenate in
theorem tail_out (V : Valuation τ sig (Elt F)) : after opsTail V (main_v84 : DevRef τ sig) = tailT (V main_v77) := rfl

abbrev argRefs : List (Ref sig .tc) :=
  [main_arg0, main_arg1, main_arg2, main_arg3, main_arg4, main_arg5, main_arg6, main_arg7, main_arg8]

def Keeps (ops : List (HloOp τ sig (Elt F))) : Prop :=
  ∀ (V : Valuation τ sig (Elt F)) (r : Ref sig .tc), r ∈ argRefs → after ops V (r : DevRef τ sig) = V (r : DevRef τ sig)

theorem Keeps.append {l₁ l₂ : List (HloOp τ sig (Elt F))} (h₁ : Keeps l₁) (h₂ : Keeps l₂) : Keeps (l₁ ++ l₂) :=
  fun V r hr => by rw [after_append, h₂ _ r hr, h₁ V r hr]

-- No operation defines an argument, so each stretch read at an argument computes to what it found there.
theorem keeps_all : Keeps (opsAll (F := F)) :=
  have k (ops : List (HloOp τ sig (Elt F)))
      (h : ∀ V, argRefs.Forall fun r : Ref sig .tc => after ops V (r : DevRef τ sig) = V (r : DevRef τ sig)) : Keeps ops :=
    fun V => List.forall_iff_forall_mem.1 (h V)
  (k opsE fun _ => ⟨rfl, rfl, rfl, rfl, rfl, rfl, rfl, rfl, rfl⟩).append ((k opsL0 fun _ => ⟨rfl, rfl, rfl, rfl, rfl, rfl, rfl, rfl, rfl⟩).append
    ((k opsL1 fun _ => ⟨rfl, rfl, rfl, rfl, rfl, rfl, rfl, rfl, rfl⟩).append ((k opsL2 fun _ => ⟨rfl, rfl, rfl, rfl, rfl, rfl, rfl, rfl, rfl⟩).append
      (k opsTail fun _ => ⟨rfl, rfl, rfl, rfl, rfl, rfl, rfl, rfl, rfl⟩))))

-- The stretches' results nested are `refOut` unfolded; an argument read after a stretch computes to the argument.
theorem out_eq (V : Valuation τ sig (Elt F)) :
    after opsAll V (main_v84 : DevRef τ sig)
      = refOut (V main_arg0) (V main_arg1) (V main_arg2) (V main_arg3) (V main_arg4) (V main_arg5) (V main_arg6) (V main_arg7) (V main_arg8) := by
  rw [opsAll, after_append, after_append, after_append, after_append, tail_out, (layer_out _).2.2, (layer_out _).2.1, (layer_out _).1, ego_out]
  rfl

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v84).trans (out_eq _), (h c main_arg0).trans (keeps_all _ _ (by decide)), (h c main_arg1).trans (keeps_all _ _ (by decide)),
        (h c main_arg2).trans (keeps_all _ _ (by decide)), (h c main_arg3).trans (keeps_all _ _ (by decide)),
        (h c main_arg4).trans (keeps_all _ _ (by decide)), (h c main_arg5).trans (keeps_all _ _ (by decide)),
        (h c main_arg6).trans (keeps_all _ _ (by decide)), (h c main_arg7).trans (keeps_all _ _ (by decide)),
        (h c main_arg8).trans (keeps_all _ _ (by decide))⟩)
    (run_seq scopedRefs_eq scopedSems_eq defs main (fun _ => opsAll) main_eq (fun _ => ops_sub) m ρ fun _ => ops_fresh)

end Cert.ReferenceIdeal.RefValue

end
-- ==== Proof.RefLayers.lean ====
import proofs.«136874_j78494822302010_1_alg».proof.Proof.RefDefs
import proofs.«136874_j78494822302010_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

namespace Cert.ReferenceIdeal.RefValue

open Cert.ReferenceIdeal Idealize.ShloMosaic Idealize.ShloMosaic.ValueIdx
open Cert.ReferenceIdeal.Facts₀ Cert.ReferenceIdeal.Facts

theorem sideT_apply (a2 : (⟨S8x4096x4096, .f32⟩ : BufTy).Contents (Elt Ideal)) (ego : (⟨S8x4096x64, .f32⟩ : BufTy).Contents (Elt Ideal))
    (b : Fin 8) (n : Fin 4096) (d : Fin 64) :
    sideT (F := Ideal) a2 ego (ix3 b n d) = ∑ k : Fin 4096, a2 (ix3 b n k) * ego (ix3 b k d) :=
  StackMember.dotGeneral_stack_apply dot_S8x4096x4096_S8x4096x64_S8x4096x64_2_1_1_2_0_0_wf none a2 ego b n d

theorem featT_apply (x : (⟨S8x4096x64, .f32⟩ : BufTy).Contents (Elt Ideal)) (w : (⟨S64x64, .f32⟩ : BufTy).Contents (Elt Ideal))
    (b : Fin 8) (n : Fin 4096) (e : Fin 64) :
    Host.dotGeneral (F := Ideal) (φ₁ := .f32) (φ₂ := .f32) dot_S8x4096x64_S64x64_S8x4096x64_2_1_01_0_n_n none x w (ix3 b n e)
      = ∑ d : Fin 64, x (ix3 b n d) * w (ix2 e d) := by
  simp only [Host.dotGeneral]
  rw [Ideal.dotGeneral_apply,
    ← Equiv.sum_comp (contrEquiv1 dot_S8x4096x64_S64x64_S8x4096x64_2_1_01_0_n_n 64 rfl rfl).symm]
  refine Finset.sum_congr rfl fun k _ => ?_
  have hk := contrEquiv1_symm_val dot_S8x4096x64_S64x64_S8x4096x64_2_1_01_0_n_n 64 rfl rfl k
  have el : dot_S8x4096x64_S64x64_S8x4096x64_2_1_01_0_n_n.lhsIdx (ix3 b n e)
      ((contrEquiv1 dot_S8x4096x64_S64x64_S8x4096x64_2_1_01_0_n_n 64 rfl rfl).symm k) = ix3 b n k :=
    funext fun a => Fin.ext (by
      match a with
      | ⟨0, _⟩ => rfl
      | ⟨1, _⟩ => rfl
      | ⟨2, _⟩ => exact (DotDims.lhsIdx_val_of_single _ rfl _ _).trans hk)
  have er : dot_S8x4096x64_S64x64_S8x4096x64_2_1_01_0_n_n.rhsIdx (ix3 b n e)
      ((contrEquiv1 dot_S8x4096x64_S64x64_S8x4096x64_2_1_01_0_n_n 64 rfl rfl).symm k) = ix2 e k :=
    funext fun a => Fin.ext (by
      match a with
      | ⟨0, _⟩ => rfl
      | ⟨1, _⟩ => exact (DotDims.rhsIdx_val_of_single _ rfl _ _).trans hk)
  rw [el, er]

theorem biasT_apply (g : (⟨S64, .f32⟩ : BufTy).Contents (Elt Ideal)) (b : Fin 8) (n : Fin 4096) (e : Fin 64) :
    biasT (F := Ideal) g (ix3 b n e) = g (ix1 e) := by
  unfold biasT
  refine (broadcastInDim_apply _ _ _ (ix3 b n e) (ix3 (0 : Fin 1) (0 : Fin 1) e) (fun a => by
    match a with
    | ⟨0, _⟩ => rfl
    | ⟨1, _⟩ => rfl
    | ⟨2, _⟩ => rfl)).trans ?_
  exact broadcastInDim_apply _ _ g (ix3 (0 : Fin 1) (0 : Fin 1) e) (ix1 e) (fun a => by
    match a with
    | ⟨0, _⟩ => rfl)

theorem lreluT_apply (x : (⟨S8x4096x64, .f32⟩ : BufTy).Contents (Elt Ideal)) (i : S8x4096x64.Idx) :
    lreluT (F := Ideal) x i = Cert.LayerSpec.lrelu (x i) := rfl

theorem layerT_apply (a2 : (⟨S8x4096x4096, .f32⟩ : BufTy).Contents (Elt Ideal)) (ego : (⟨S8x4096x64, .f32⟩ : BufTy).Contents (Elt Ideal))
    (gw : (⟨S64x64, .f32⟩ : BufTy).Contents (Elt Ideal)) (gb : (⟨S64, .f32⟩ : BufTy).Contents (Elt Ideal))
    (bw : (⟨S64x64, .f32⟩ : BufTy).Contents (Elt Ideal)) (bb : (⟨S64, .f32⟩ : BufTy).Contents (Elt Ideal)) (b : Fin 8) (n : Fin 4096) (e : Fin 64) :
    layerT (F := Ideal) a2 ego gw gb bw bb (ix3 b n e)
      = Cert.LayerSpec.layer (fun b n k => a2 (ix3 b n k)) (fun b n d => ego (ix3 b n d)) (fun e d => gw (ix2 e d)) (fun e => gb (ix1 e))
          (fun e d => bw (ix2 e d)) (fun e => bb (ix1 e)) b n e := by
  unfold layerT Cert.LayerSpec.layer Cert.LayerSpec.side
  rw [addf_apply, lreluT_apply, lreluT_apply, addf_apply, addf_apply, featT_apply, featT_apply, biasT_apply, biasT_apply]
  simp only [mulf_apply, sideT_apply]

-- A one-matrix (one-row) slice of a stack, its leading unit axis dropped, reads the stack at the slice's offset.
theorem wT_apply (l : Fin 3) (h : S3x64x64.Slices ![l.val, 0, 0] S1x64x64) (a : (⟨S3x64x64, .f32⟩ : BufTy).Contents (Elt Ideal)) (e d : Fin 64) :
    shapeCast S64x64 (extractStridedSlice S1x64x64 ![l.val, 0, 0] a h) shapeCasts_S1x64x64_S64x64 (ix2 e d) = a (ix3 l e d) :=
  (shapeCast_1ab_ab_apply _ _ e d).trans (extractStridedSlice_apply _ a _ _ _ fun ax => by
    match ax with
    | ⟨0, _⟩ => rfl
    | ⟨1, _⟩ => exact (Nat.zero_add _).symm
    | ⟨2, _⟩ => exact (Nat.zero_add _).symm)

theorem bT_apply (l : Fin 3) (h : S3x64.Slices ![l.val, 0] S1x64) (a : (⟨S3x64, .f32⟩ : BufTy).Contents (Elt Ideal)) (e : Fin 64) :
    shapeCast S64 (extractStridedSlice S1x64 ![l.val, 0] a h) shapeCasts_S1x64_S64 (ix1 e) = a (ix2 l e) :=
  (shapeCast_1a_a_apply _ _ e).trans (extractStridedSlice_apply _ a _ _ _ fun ax => by
    match ax with
    | ⟨0, _⟩ => rfl
    | ⟨1, _⟩ => exact (Nat.zero_add _).symm)

theorem w0_apply (a : (⟨S3x64x64, .f32⟩ : BufTy).Contents (Elt Ideal)) (e d : Fin 64) : w0 (F := Ideal) a (ix2 e d) = a (ix3 0 e d) := wT_apply 0 _ a e d
theorem w1_apply (a : (⟨S3x64x64, .f32⟩ : BufTy).Contents (Elt Ideal)) (e d : Fin 64) : w1 (F := Ideal) a (ix2 e d) = a (ix3 1 e d) := wT_apply 1 _ a e d
theorem w2_apply (a : (⟨S3x64x64, .f32⟩ : BufTy).Contents (Elt Ideal)) (e d : Fin 64) : w2 (F := Ideal) a (ix2 e d) = a (ix3 2 e d) := wT_apply 2 _ a e d
theorem b0_apply (a : (⟨S3x64, .f32⟩ : BufTy).Contents (Elt Ideal)) (e : Fin 64) : b0 (F := Ideal) a (ix1 e) = a (ix2 0 e) := bT_apply 0 _ a e
theorem b1_apply (a : (⟨S3x64, .f32⟩ : BufTy).Contents (Elt Ideal)) (e : Fin 64) : b1 (F := Ideal) a (ix1 e) = a (ix2 1 e) := bT_apply 1 _ a e
theorem b2_apply (a : (⟨S3x64, .f32⟩ : BufTy).Contents (Elt Ideal)) (e : Fin 64) : b2 (F := Ideal) a (ix1 e) = a (ix2 2 e) := bT_apply 2 _ a e

end Cert.ReferenceIdeal.RefValue

end
-- ==== Proof.Bridge.lean ====
import proofs.«136874_j78494822302010_1_alg».proof.Proof.KIHost
import proofs.«136874_j78494822302010_1_alg».proof.Proof.RefLayers
import proofs.«136874_j78494822302010_1_alg».proof.Proof.Spec
import Idealize.ShloMosaic.Lib.ValueIdx

noncomputable section

namespace Cert.Bridge

open Idealize.ShloMosaic Idealize.ShloMosaic.ValueIdx Cert.KernelIdeal Cert.ReferenceIdeal.RefValue

section Same

attribute [local irreducible] Host.gather Host.reduce Host.reduceAdd Host.exp Host.log concatenate

/-- Both programs spell the layers' input the same way. -/
theorem ego_bridge (a0 a1 : Vec Ideal S8x2048 .i32) (a3 a4 : Vec Ideal S100000x64 .f32) :
    Layer.egoK (F := Ideal) a0 a1 a3 a4 = egoT (F := Ideal) a0 a1 a3 a4 := rfl

/-- Both programs spell the closing score the same way. -/
theorem tail_bridge (x : Vec Ideal S8x4096x64 .f32) : Layer.tailK (F := Ideal) x = tailT (F := Ideal) x := rfl

end Same

/-- The kernel's coordinate form of a layer is the reference's layer when their parameter arrays hold the same entries `s`, `u`, `t`, `v`. -/
theorem layer_bridge {a2 : Vec Ideal S8x4096x4096 .f32} {x y : Vec Ideal S8x4096x64 .f32} (hxy : x = y)
    {gwK bwK gw bw : Vec Ideal S64x64 .f32} {gbK bbK : Vec Ideal S1x64 .f32} {gb bb : Vec Ideal ReferenceIdeal.S64 .f32}
    {s t : Fin 64 → Fin 64 → EReal} {u v : Fin 64 → EReal}
    (hgwK : ∀ d e, gwK (ix2 d e) = s e d) (hgw : ∀ e d, gw (ix2 e d) = s e d) (hgbK : ∀ e, gbK (ix2 0 e) = u e) (hgb : ∀ e, gb (ix1 e) = u e)
    (hbwK : ∀ d e, bwK (ix2 d e) = t e d) (hbw : ∀ e d, bw (ix2 e d) = t e d) (hbbK : ∀ e, bbK (ix2 0 e) = v e) (hbb : ∀ e, bb (ix1 e) = v e) :
    (fun j : S8x4096x64.Idx => LayerSpec.layer (fun b n k => a2 (ix3 b n k)) (fun b n d => x (ix3 b n d)) (fun e d => gwK (ix2 d e))
        (fun e => gbK (ix2 0 e)) (fun e d => bwK (ix2 d e)) (fun e => bbK (ix2 0 e)) (j 0) (j 1) (j 2))
      = layerT (F := Ideal) a2 y gw gb bw bb := by
  subst hxy
  funext j
  obtain ⟨b, n, e, rfl⟩ : ∃ (b : Fin 8) (n : Fin 4096) (e : Fin 64), j = ix3 b n e := ⟨j 0, j 1, j 2, eq_ix3 j⟩
  rw [layerT_apply]
  simp only [hgwK, hgw, hgbK, hgb, hbwK, hbw, hbbK, hbb]

end Cert.Bridge

end
-- ==== Proof.lean ====
import proofs.«136874_j78494822302010_1_alg».proof.Defs
import proofs.«136874_j78494822302010_1_alg».proof.Proof.Gen.Pre_finite_inputs
import proofs.«136874_j78494822302010_1_alg».proof.Proof.KRun
import proofs.«136874_j78494822302010_1_alg».proof.Proof.KIRunValue
import proofs.«136874_j78494822302010_1_alg».proof.Proof.KIChain
import proofs.«136874_j78494822302010_1_alg».proof.Proof.RefRun
import proofs.«136874_j78494822302010_1_alg».proof.Proof.Bridge
import Idealize.ShloMosaic.Adequacy
import Idealize.ShloMosaic.Init

noncomputable section

namespace Cert.Proof

open Idealize.ShloMosaic Idealize.SL.Sem

section KernelIdeal

open Cert.KernelIdeal Cert.KernelIdeal.Layer Cert.ReferenceIdeal.RefValue Cert.Bridge Idealize.ShloMosaic.TcCoe

/-- Layer by layer both read the same entries of the stacked parameters; the gather before and the closing score after are shared. -/
theorem kernel_value (m : (ℓ : Loc nD τ sig) → Buf (Elt Ideal) ℓ) (c : Dev nD) :
    W9 m c main_v52 = refOut (W0 m c main_arg0) (W0 m c main_arg1) (W0 m c main_arg2) (W0 m c main_arg3) (W0 m c main_arg4)
      (W0 m c main_arg5) (W0 m c main_arg6) (W0 m c main_arg7) (W0 m c main_arg8) :=
  (result_eq m c).trans <| (tail_bridge _).trans <| congrArg (tailT (F := Ideal)) <|
    layer_bridge (layer_bridge (layer_bridge (ego_bridge _ _ _ _)
        (wK0_tp_apply _) (w0_apply _) (bK0_rs_apply _) (b0_apply _) (wK0_tp_apply _) (w0_apply _) (bK0_rs_apply _) (b0_apply _))
      (wK1_tp_apply _) (w1_apply _) (bK1_rs_apply _) (b1_apply _) (wK1_tp_apply _) (w1_apply _) (bK1_rs_apply _) (b1_apply _))
    (wK2_tp_apply _) (w2_apply _) (bK2_rs_apply _) (b2_apply _) (wK2_tp_apply _) (w2_apply _) (bK2_rs_apply _) (b2_apply _)

theorem algebraic : Cert.algebraic_KernelIdeal_ReferenceIdeal := fun m ρ m' ρ' _ hagree =>
  ⟨fun c => W9 m c main_v52,
    (θ_run (defs (F := Ideal)) _ _).mono (fun r h c => ⟨h.1 c _ (mem_uc main_v52 (by decide)), h.2 c⟩)
      (run_and (run_vals (F := Ideal) m ρ) (frame (F := Ideal) m ρ)),
    (θ_run (Cert.ReferenceIdeal.defs (F := Ideal)) _ _).mono (fun r h c =>
      ⟨by
        obtain ⟨h0, h1, h2, h3, h4, h5, h6, h7, h8⟩ := hagree c
        rw [(h c).1, h0, h1, h2, h3, h4, h5, h6, h7, h8]
        exact (kernel_value m c).symm,
       (h c).2⟩)
      (ref_run (F := Ideal) m' ρ')⟩

end KernelIdeal

theorem frame_Kernel : Cert.frame_Kernel := fun m ρ _ => Cert.Kernel.Layer.frame (F := Bits) m ρ

theorem frame_KernelIdeal : Cert.frame_KernelIdeal := fun m ρ _ => Cert.KernelIdeal.Layer.frame (F := Ideal) m ρ

theorem frame_ReferenceIdeal : Cert.frame_ReferenceIdeal := fun m ρ _ =>
  (θ_run (Cert.ReferenceIdeal.defs (F := Ideal)) _ _).mono (fun _ h c => (h c).2) (Cert.ReferenceIdeal.RefValue.ref_run (F := Ideal) m ρ)

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
